-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v45)) (v2 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_v49) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S2x262144 : Shape := ⟨2, ![2, 262144]⟩
abbrev S16384x64 : Shape := ⟨2, ![16384, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x262144 : S_.BroadcastsInDim S2x262144 (![] : Fin 0 → Fin S2x262144.rank)
  reducesTo_S2x262144_S_d0_1 : S2x262144.ReducesTo [0, 1] S_

variable [Facts]

def fn_part2 {F : FTy → Type} [FloatOps F] (main_arg1 : IVec S2x262144 32) (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S2x262144 32 := broadcastInDim S2x262144 ![] bcast_S_S2x262144 main_c_14
  let main_v40 : IVec S2x262144 1 := cmpi .sge main_arg1 main_v39
  let main_c_15 : IVec S_ 1 := constantI S_ 1 1#1
  let main_v41 : IVec S_ 1 := (fun x v => Host.reduce IntOp.andi x v reducesTo_S2x262144_S_d0_1 h_S_) main_v40 main_c_15
  let main_v42 : IVec S_ 1 := andi main_v38 main_v41
  let main_c_16 : IVec S_ 32 := constantI S_ 32 16384#32
  let main_v43 : IVec S2x262144 32 := broadcastInDim S2x262144 ![] bcast_S_S2x262144 main_c_16
  let main_v44 : IVec S2x262144 1 := cmpi .slt main_arg1 main_v43
  let main_c_17 : IVec S_ 1 := constantI S_ 1 1#1
  let main_v45 : IVec S_ 1 := (fun x v => Host.reduce IntOp.andi x v reducesTo_S2x262144_S_d0_1 h_S_) main_v44 main_c_17
  let main_v46 : IVec S_ 1 := andi main_v42 main_v45
  main_v46

def fn_part1 {F : FTy → Type} [FloatOps F] (main_arg1 : IVec S2x262144 32) (main_arg5 : FVec F S128x64 .f32) (main_arg6 : FVec F S64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg1 main_arg8 main_v33

def fn {F : FTy → Type} [FloatOps F] (main_arg0 : FVec F S16384x256 .f32) (main_arg1 : IVec S2x262144 32) (main_arg2 : FVec F S16384x64 .f32) (main_arg3 : FVec F S256x128 .f32) (main_arg4 : FVec F S128 .f32) (main_arg5 : FVec F S128x64 .f32) (main_arg6 : FVec F S64 .f32) (main_arg7 : FVec F S128x64 .f32) (main_arg8 : FVec F S64 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x64 .f32 := Host.absf main_arg2
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_v13 main_v16
-- ==== Kernel.lean ====
abbrev S16384x256 : Shape := ⟨2, ![16384, 256]⟩
abbrev S2x262144 : Shape := ⟨2, ![2, 262144]⟩
abbrev S16384x64 : Shape := ⟨2, ![16384, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S16384 : Shape := ⟨1, ![16384]⟩
abbrev S1x262144 : Shape := ⟨2, ![1, 262144]⟩
abbrev S262144 : Shape := ⟨1, ![262144]⟩
abbrev S278528 : Shape := ⟨1, ![278528]⟩
abbrev S_ : Shape := ⟨0, ![]⟩
abbrev S278528x1 : Shape := ⟨2, ![278528, 1]⟩
abbrev S268435456 : Shape := ⟨1, ![268435456]⟩
abbrev S16384x16384 : Shape := ⟨2, ![16384, 16384]⟩
abbrev S16384x128 : Shape := ⟨2, ![16384, 128]⟩
abbrev S1x128 : Shape := ⟨2, ![1, 128]⟩
abbrev S2048x2048 : Shape := ⟨2, ![2048, 2048]⟩
abbrev S2048x128 : Shape := ⟨2, ![2048, 128]⟩
abbrev S1x64 : Shape := ⟨2, ![1, 64]⟩
abbrev S2048x64 : Shape := ⟨2, ![2048, 64]⟩
abbrev S1024x64 : Shape := ⟨2, ![1024, 64]⟩
abbrev S2048x1024 : Shape := ⟨2, ![2048, 1024]⟩

abbrev nBuf : Space → Nat
  | .hbm => 79
  | .vmem => 30
  | .smem => 0
  | _ => 0

abbrev bufTy : (tb : Table) → Fin (tcTables nBuf tb) → BufTy
  | .hbm, ⟨0, _⟩ => ⟨S16384x256, .f32⟩
  | .hbm, ⟨1, _⟩ => ⟨S2x262144, .i32⟩
  | .hbm, ⟨2, _⟩ => ⟨S16384x64, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S16384, .i32⟩
  | .hbm, ⟨10, _⟩ => ⟨S1x262144, .i32⟩
  | .hbm, ⟨11, _⟩ => ⟨S262144, .i32⟩
  | .hbm, ⟨12, _⟩ => ⟨S278528, .i32⟩
  | .hbm, ⟨13, _⟩ => ⟨S1x262144, .i32⟩
  | .hbm, ⟨14, _⟩ => ⟨S262144, .i32⟩
  | .hbm, ⟨15, _⟩ => ⟨S278528, .i32⟩
  | .hbm, ⟨16, _⟩ => ⟨S_, .f32⟩
  | .hbm, ⟨17, _⟩ => ⟨S278528, .f32⟩
  | .hbm, ⟨18, _⟩ => ⟨S_, .f32⟩
  | .hbm, ⟨19, _⟩ => ⟨S16384, .f32⟩
  | .hbm, ⟨20, _⟩ => ⟨S278528x1, .i32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .i1⟩
  | .hbm, ⟨25, _⟩ => ⟨S16384, .f32⟩
  | .hbm, ⟨26, _⟩ => ⟨S_, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S_, .i32⟩
  | .hbm, ⟨31, _⟩ => ⟨S278528, .i32⟩
  | .hbm, ⟨32, _⟩ => ⟨S278528, .i1⟩
  | .hbm, ⟨33, _⟩ => ⟨S_, .i32⟩
  | .hbm, ⟨34, _⟩ => ⟨S278528, .i32⟩
  | .hbm, ⟨35, _⟩ => ⟨S278528, .i32⟩
  | .hbm, ⟨36, _⟩ => ⟨S278528, .i32⟩
  | .hbm, ⟨37, _⟩ => ⟨S278528x1, .i32⟩
  | .hbm, ⟨38, _⟩ => ⟨S278528, .f32⟩
  | .hbm, ⟨39, _⟩ => ⟨S_, .i32⟩
  | .hbm, ⟨40, _⟩ => ⟨S278528, .i32⟩
  | .hbm, ⟨41, _⟩ => ⟨S278528, .i1⟩
  | .hbm, ⟨42, _⟩ => ⟨S_, .i32⟩
  | .hbm, ⟨43, _⟩ => ⟨S278528, .i32⟩
  | .hbm, ⟨44, _⟩ => ⟨S278528, .i32⟩
  | .hbm, ⟨45, _⟩ => ⟨S278528, .i32⟩
  | .hbm, ⟨46, _⟩ => ⟨S278528x1, .i32⟩
  | .hbm, ⟨47, _⟩ => ⟨S278528, .f32⟩
  | .hbm, ⟨48, _⟩ => ⟨S278528, .f32⟩
  | .hbm, ⟨49, _⟩ => ⟨S_, .i32⟩
  | .hbm, ⟨50, _⟩ => ⟨S278528, .i32⟩
  | .hbm, ⟨51, _⟩ => ⟨S278528, .i32⟩
  | .hbm, ⟨52, _⟩ => ⟨S278528, .i32⟩
  | .hbm, ⟨53, _⟩ => ⟨S_, .f32⟩
  | .hbm, ⟨54, _⟩ => ⟨S268435456, .f32⟩
  | .hbm, ⟨55, _⟩ => ⟨S278528x1, .i32⟩
  | .hbm, ⟨56, _⟩ => ⟨S268435456, .f32⟩
  | .hbm, ⟨57, _⟩ => ⟨S16384x16384, .f32⟩
  | .hbm, ⟨58, _⟩ => ⟨S16384x16384, .bf16⟩
  | .hbm, ⟨59, _⟩ => ⟨S16384x128, .f32⟩
  | .hbm, ⟨60, _⟩ => ⟨S16384x128, .bf16⟩
  | .hbm, ⟨61, _⟩ => ⟨S1x128, .f32⟩
  | .hbm, ⟨62, _⟩ => ⟨S16384x128, .f32⟩
  | .hbm, ⟨63, _⟩ => ⟨S16384x64, .f32⟩
  | .hbm, ⟨64, _⟩ => ⟨S16384x64, .bf16⟩
  | .hbm, ⟨65, _⟩ => ⟨S1x64, .f32⟩
  | .hbm, ⟨66, _⟩ => ⟨S16384x64, .f32⟩
  | .hbm, ⟨67, _⟩ => ⟨S16384x64, .f32⟩
  | .hbm, ⟨68, _⟩ => ⟨S16384x64, .bf16⟩
  | .hbm, ⟨69, _⟩ => ⟨S1x64, .f32⟩
  | .hbm, ⟨70, _⟩ => ⟨S16384x64, .f32⟩
  | .hbm, ⟨71, _⟩ => ⟨S_, .f32⟩
  | .hbm, ⟨72, _⟩ => ⟨S16384x64, .f32⟩
  | .hbm, ⟨73, _⟩ => ⟨S16384x64, .f32⟩
  | .hbm, ⟨74, _⟩ => ⟨S16384x64, .f32⟩
  | .hbm, ⟨75, _⟩ => ⟨S16384x64, .f32⟩
  | .hbm, ⟨76, _⟩ => ⟨S16384x64, .f32⟩
  | .hbm, ⟨77, _⟩ => ⟨S16384x64, .bf16⟩
  | .hbm, ⟨78, _⟩ => ⟨S16384x16384, .f32⟩
  | .local _ .vmem, ⟨0, _⟩ => ⟨S2048x2048, .bf16⟩
  | .local _ .vmem, ⟨1, _⟩ => ⟨S2048x2048, .bf16⟩
  | .local _ .vmem, ⟨2, _⟩ => ⟨S2048x128, .bf16⟩
  | .local _ .vmem, ⟨3, _⟩ => ⟨S2048x128, .bf16⟩
  | .local _ .vmem, ⟨4, _⟩ => ⟨S1x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x2048, .bf16⟩
  | .local _ .vmem, ⟨9, _⟩ => ⟨S2048x2048, .bf16⟩
  | .local _ .vmem, ⟨10, _⟩ => ⟨S2048x64, .bf16⟩
  | .local _ .vmem, ⟨11, _⟩ => ⟨S2048x64, .bf16⟩
  | .local _ .vmem, ⟨12, _⟩ => ⟨S1x64, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S2048x2048, .bf16⟩
  | .local _ .vmem, ⟨17, _⟩ => ⟨S2048x2048, .bf16⟩
  | .local _ .vmem, ⟨18, _⟩ => ⟨S2048x64, .bf16⟩
  | .local _ .vmem, ⟨19, _⟩ => ⟨S2048x64, .bf16⟩
  | .local _ .vmem, ⟨20, _⟩ => ⟨S1x64, .f32⟩
  | .local _ .vmem, ⟨21, _⟩ => ⟨S2048x64, .f32⟩
  | .local _ .vmem, ⟨22, _⟩ => ⟨S2048x64, .f32⟩
  | .local _ .vmem, ⟨23, _⟩ => ⟨S2048x64, .f32⟩
  | .local _ .vmem, ⟨24, _⟩ => ⟨S2048x64, .bf16⟩
  | .local _ .vmem, ⟨25, _⟩ => ⟨S2048x64, .bf16⟩
  | .local _ .vmem, ⟨26, _⟩ => ⟨S1024x64, .bf16⟩
  | .local _ .vmem, ⟨27, _⟩ => ⟨S1024x64, .bf16⟩
  | .local _ .vmem, ⟨28, _⟩ => ⟨S2048x1024, .f32⟩
  | .local _ .vmem, ⟨29, _⟩ => ⟨S2048x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_8 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![8, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  slices_S2x262144_S1x262144_0_0 : S2x262144.Slices ![0, 0] S1x262144
  shapeCasts_S1x262144_S262144 : S1x262144.ShapeCasts S262144
  concatenates_S262144_S16384_S278528_d0 : Shape.Concatenates [S262144, S16384] S278528 0
  slices_S2x262144_S1x262144_1_0 : S2x262144.Slices ![1, 0] S1x262144
  bcast_S_S278528 : S_.BroadcastsInDim S278528 (![] : Fin 0 → Fin S278528.rank)
  bcast_S_S16384 : S_.BroadcastsInDim S16384 (![] : Fin 0 → Fin S16384.rank)
  bcast_S278528_S278528x1_0 : S278528.BroadcastsInDim S278528x1 (![0] : Fin 1 → Fin S278528x1.rank)
  bcast_S_S268435456 : S_.BroadcastsInDim S268435456 (![] : Fin 0 → Fin S268435456.rank)
  shapeCasts_S268435456_S16384x16384 : S268435456.ShapeCasts S16384x16384
  bitsLt_bf16_f32 : FTy.bits .bf16 < FTy.bits .f32
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  bcast_S_S16384x64 : S_.BroadcastsInDim S16384x64 (![] : Fin 0 → Fin S16384x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x1024_S2048x1024_0_0 : ∀ a, (![0, 0] : Fin 2 → Nat) a + S2048x1024.size a ≤ S2048x1024.size a
  h_S2048x1024 : 0 < S2048x1024.numel
  scatter_S16384_S278528x1_S278528_n_0_0_1_wf : ScatterDims.WF S16384 S278528x1 S278528 [] [0] [0] 1
  gather_S16384_S278528x1_S278528_n_0_n_n_0_1_1_wf : GatherDims.WF S16384 S278528x1 S278528 [] [0] [] [0] [] 1 ![1]
  scatter_S268435456_S278528x1_S278528_n_0_0_1_wf : ScatterDims.WF S268435456 S278528x1 S278528 [] [0] [0] 1
  dot_S16384x256_S256x128_S16384x128_1_0_0_1_n_n_wf : DotDims.WF S16384x256 S256x128 S16384x128 [1] [0] [0] [1] [] []
  dot_S2048x2048_S2048x128_S2048x128_1_0_0_1_n_n_wf : DotDims.WF S2048x2048 S2048x128 S2048x128 [1] [0] [0] [1] [] []
  dot_S16384x128_S128x64_S16384x64_1_0_0_1_n_n_wf : DotDims.WF S16384x128 S128x64 S16384x64 [1] [0] [0] [1] [] []
  dot_S2048x2048_S2048x64_S2048x64_1_0_0_1_n_n_wf : DotDims.WF S2048x2048 S2048x64 S2048x64 [1] [0] [0] [1] [] []
  dot_S2048x64_S1024x64_S2048x1024_1_1_0_0_n_n_wf : DotDims.WF S2048x64 S1024x64 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S16384x16384.size a
  hwx0_0 : ∀ i : grid0.Coords, EltTy.bits .bf16 = 32 ∨ (Rect.block (s := S16384x16384) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .bf16 = 32 ∨ (Rect.block (s := S16384x128) S2048x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .f32 = 32 ∨ (Rect.block (s := S16384x128) S2048x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S16384x16384.size a
  hwx1_0 : ∀ i : grid1.Coords, EltTy.bits .bf16 = 32 ∨ (Rect.block (s := S16384x16384) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .bf16 = 32 ∨ (Rect.block (s := S16384x64) S2048x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S16384x64.size a
  hwx1_3 : ∀ i : grid1.Coords, EltTy.bits .f32 = 32 ∨ (Rect.block (s := S16384x64) S2048x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S16384x16384.size a
  hwx2_0 : ∀ i : grid2.Coords, EltTy.bits .bf16 = 32 ∨ (Rect.block (s := S16384x16384) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S16384x64.size a
  hwx2_1 : ∀ i : grid2.Coords, EltTy.bits .bf16 = 32 ∨ (Rect.block (s := S16384x64) S2048x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S16384x64.size a
  hwx2_3 : ∀ i : grid2.Coords, EltTy.bits .f32 = 32 ∨ (Rect.block (s := S16384x64) S2048x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x64.size a ≤ S16384x64.size a
  hwx3_0 : ∀ i : grid3.Coords, EltTy.bits .bf16 = 32 ∨ (Rect.block (s := S16384x64) S2048x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x64.size a ≤ S16384x64.size a
  hwx3_1 : ∀ i : grid3.Coords, EltTy.bits .bf16 = 32 ∨ (Rect.block (s := S16384x64) S1024x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1024.size a ≤ S16384x16384.size a
  hwx3_2 : ∀ i : grid3.Coords, EltTy.bits .f32 = 32 ∨ (Rect.block (s := S16384x16384) S2048x1024.size (cc3_transform_2 i) (hinb3_2 i)).WholeWords (EltTy.packing .f32)

variable [Facts₀]

def scatter_S16384_S278528x1_S278528_n_0_0_1 : ScatterDims S16384 S278528x1 S278528 where
  updateWindowDims := []
  insertedWindowDims := [0]
  scatterDimsToOperandDims := [0]
  indexVectorDim := 1
  wf := scatter_S16384_S278528x1_S278528_n_0_0_1_wf
def gather_S16384_S278528x1_S278528_n_0_n_n_0_1_1 : GatherDims S16384 S278528x1 S278528 where
  offsetDims := []
  collapsedSliceDims := [0]
  operandBatchingDims := []
  startIndicesBatchingDims := []
  startIndexMap := [0]
  indexVectorDim := 1
  sliceSizes := ![1]
  wf := gather_S16384_S278528x1_S278528_n_0_n_n_0_1_1_wf
def scatter_S268435456_S278528x1_S278528_n_0_0_1 : ScatterDims S268435456 S278528x1 S278528 where
  updateWindowDims := []
  insertedWindowDims := [0]
  scatterDimsToOperandDims := [0]
  indexVectorDim := 1
  wf := scatter_S268435456_S278528x1_S278528_n_0_0_1_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf

abbrev win0_0 : Pipeline.Window sig grid0 :=
  Pipeline.Window.ofSpec (Memref.whole main_v37) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v37) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v37) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S2048x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v55) S2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S1024x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S2048x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S16384x256 : Shape := ⟨2, ![16384, 256]⟩
abbrev S2x262144 : Shape := ⟨2, ![2, 262144]⟩
abbrev S16384x64 : Shape := ⟨2, ![16384, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S16384 : Shape := ⟨1, ![16384]⟩
abbrev S1x262144 : Shape := ⟨2, ![1, 262144]⟩
abbrev S262144 : Shape := ⟨1, ![262144]⟩
abbrev S278528 : Shape := ⟨1, ![278528]⟩
abbrev S_ : Shape := ⟨0, ![]⟩
abbrev S278528x1 : Shape := ⟨2, ![278528, 1]⟩
abbrev S16384x128 : Shape := ⟨2, ![16384, 128]⟩
abbrev S278528x128 : Shape := ⟨2, ![278528, 128]⟩
abbrev S1x128 : Shape := ⟨2, ![1, 128]⟩
abbrev S278528x64 : Shape := ⟨2, ![278528, 64]⟩
abbrev S1x64 : Shape := ⟨2, ![1, 64]⟩
abbrev S64x16384 : Shape := ⟨2, ![64, 16384]⟩
abbrev S16384x16384 : Shape := ⟨2, ![16384, 16384]⟩

abbrev nBuf : Space → Nat
  | .hbm => 128
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S2x262144, .i32⟩
  | .hbm, ⟨2, _⟩ => ⟨S16384x64, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S16384, .i32⟩
  | .hbm, ⟨10, _⟩ => ⟨S1x262144, .i32⟩
  | .hbm, ⟨11, _⟩ => ⟨S262144, .i32⟩
  | .hbm, ⟨12, _⟩ => ⟨S278528, .i32⟩
  | .hbm, ⟨13, _⟩ => ⟨S1x262144, .i32⟩
  | .hbm, ⟨14, _⟩ => ⟨S262144, .i32⟩
  | .hbm, ⟨15, _⟩ => ⟨S278528, .i32⟩
  | .hbm, ⟨16, _⟩ => ⟨S_, .f32⟩
  | .hbm, ⟨17, _⟩ => ⟨S278528, .f32⟩
  | .hbm, ⟨18, _⟩ => ⟨S_, .f32⟩
  | .hbm, ⟨19, _⟩ => ⟨S16384, .f32⟩
  | .hbm, ⟨20, _⟩ => ⟨S278528x1, .i32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .i1⟩
  | .hbm, ⟨25, _⟩ => ⟨S16384, .f32⟩
  | .hbm, ⟨26, _⟩ => ⟨S_, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S_, .i32⟩
  | .hbm, ⟨31, _⟩ => ⟨S278528, .i32⟩
  | .hbm, ⟨32, _⟩ => ⟨S278528, .i1⟩
  | .hbm, ⟨33, _⟩ => ⟨S_, .i32⟩
  | .hbm, ⟨34, _⟩ => ⟨S278528, .i32⟩
  | .hbm, ⟨35, _⟩ => ⟨S278528, .i32⟩
  | .hbm, ⟨36, _⟩ => ⟨S278528, .i32⟩
  | .hbm, ⟨37, _⟩ => ⟨S278528x1, .i32⟩
  | .hbm, ⟨38, _⟩ => ⟨S278528, .f32⟩
  | .hbm, ⟨39, _⟩ => ⟨S_, .i32⟩
  | .hbm, ⟨40, _⟩ => ⟨S278528, .i32⟩
  | .hbm, ⟨41, _⟩ => ⟨S278528, .i1⟩
  | .hbm, ⟨42, _⟩ => ⟨S_, .i32⟩
  | .hbm, ⟨43, _⟩ => ⟨S278528, .i32⟩
  | .hbm, ⟨44, _⟩ => ⟨S278528, .i32⟩
  | .hbm, ⟨45, _⟩ => ⟨S278528, .i32⟩
  | .hbm, ⟨46, _⟩ => ⟨S278528x1, .i32⟩
  | .hbm, ⟨47, _⟩ => ⟨S278528, .f32⟩
  | .hbm, ⟨48, _⟩ => ⟨S278528, .f32⟩
  | .hbm, ⟨49, _⟩ => ⟨S16384x128, .f32⟩
  | .hbm, ⟨50, _⟩ => ⟨S_, .i32⟩
  | .hbm, ⟨51, _⟩ => ⟨S278528, .i32⟩
  | .hbm, ⟨52, _⟩ => ⟨S278528, .i1⟩
  | .hbm, ⟨53, _⟩ => ⟨S_, .i32⟩
  | .hbm, ⟨54, _⟩ => ⟨S278528, .i32⟩
  | .hbm, ⟨55, _⟩ => ⟨S278528, .i32⟩
  | .hbm, ⟨56, _⟩ => ⟨S278528, .i32⟩
  | .hbm, ⟨57, _⟩ => ⟨S278528x1, .i32⟩
  | .hbm, ⟨58, _⟩ => ⟨S278528x128, .f32⟩
  | .hbm, ⟨59, _⟩ => ⟨S278528x1, .f32⟩
  | .hbm, ⟨60, _⟩ => ⟨S278528x128, .f32⟩
  | .hbm, ⟨61, _⟩ => ⟨S278528x128, .f32⟩
  | .hbm, ⟨62, _⟩ => ⟨S_, .f32⟩
  | .hbm, ⟨63, _⟩ => ⟨S16384x128, .f32⟩
  | .hbm, ⟨64, _⟩ => ⟨S278528x1, .i32⟩
  | .hbm, ⟨65, _⟩ => ⟨S16384x128, .f32⟩
  | .hbm, ⟨66, _⟩ => ⟨S1x128, .f32⟩
  | .hbm, ⟨67, _⟩ => ⟨S16384x128, .f32⟩
  | .hbm, ⟨68, _⟩ => ⟨S16384x128, .f32⟩
  | .hbm, ⟨69, _⟩ => ⟨S_, .f32⟩
  | .hbm, ⟨70, _⟩ => ⟨S16384x128, .f32⟩
  | .hbm, ⟨71, _⟩ => ⟨S16384x128, .f32⟩
  | .hbm, ⟨72, _⟩ => ⟨S16384x64, .f32⟩
  | .hbm, ⟨73, _⟩ => ⟨S_, .i32⟩
  | .hbm, ⟨74, _⟩ => ⟨S278528, .i32⟩
  | .hbm, ⟨75, _⟩ => ⟨S278528, .i1⟩
  | .hbm, ⟨76, _⟩ => ⟨S_, .i32⟩
  | .hbm, ⟨77, _⟩ => ⟨S278528, .i32⟩
  | .hbm, ⟨78, _⟩ => ⟨S278528, .i32⟩
  | .hbm, ⟨79, _⟩ => ⟨S278528, .i32⟩
  | .hbm, ⟨80, _⟩ => ⟨S278528x1, .i32⟩
  | .hbm, ⟨81, _⟩ => ⟨S278528x64, .f32⟩
  | .hbm, ⟨82, _⟩ => ⟨S278528x1, .f32⟩
  | .hbm, ⟨83, _⟩ => ⟨S278528x64, .f32⟩
  | .hbm, ⟨84, _⟩ => ⟨S278528x64, .f32⟩
  | .hbm, ⟨85, _⟩ => ⟨S_, .f32⟩
  | .hbm, ⟨86, _⟩ => ⟨S16384x64, .f32⟩
  | .hbm, ⟨87, _⟩ => ⟨S278528x1, .i32⟩
  | .hbm, ⟨88, _⟩ => ⟨S16384x64, .f32⟩
  | .hbm, ⟨89, _⟩ => ⟨S1x64, .f32⟩
  | .hbm, ⟨90, _⟩ => ⟨S16384x64, .f32⟩
  | .hbm, ⟨91, _⟩ => ⟨S16384x64, .f32⟩
  | .hbm, ⟨92, _⟩ => ⟨S16384x64, .f32⟩
  | .hbm, ⟨93, _⟩ => ⟨S_, .i32⟩
  | .hbm, ⟨94, _⟩ => ⟨S278528, .i32⟩
  | .hbm, ⟨95, _⟩ => ⟨S278528, .i1⟩
  | .hbm, ⟨96, _⟩ => ⟨S_, .i32⟩
  | .hbm, ⟨97, _⟩ => ⟨S278528, .i32⟩
  | .hbm, ⟨98, _⟩ => ⟨S278528, .i32⟩
  | .hbm, ⟨99, _⟩ => ⟨S278528, .i32⟩
  | .hbm, ⟨100, _⟩ => ⟨S278528x1, .i32⟩
  | .hbm, ⟨101, _⟩ => ⟨S278528x64, .f32⟩
  | .hbm, ⟨102, _⟩ => ⟨S278528x1, .f32⟩
  | .hbm, ⟨103, _⟩ => ⟨S278528x64, .f32⟩
  | .hbm, ⟨104, _⟩ => ⟨S278528x64, .f32⟩
  | .hbm, ⟨105, _⟩ => ⟨S_, .f32⟩
  | .hbm, ⟨106, _⟩ => ⟨S16384x64, .f32⟩
  | .hbm, ⟨107, _⟩ => ⟨S278528x1, .i32⟩
  | .hbm, ⟨108, _⟩ => ⟨S16384x64, .f32⟩
  | .hbm, ⟨109, _⟩ => ⟨S1x64, .f32⟩
  | .hbm, ⟨110, _⟩ => ⟨S16384x64, .f32⟩
  | .hbm, ⟨111, _⟩ => ⟨S16384x64, .f32⟩
  | .hbm, ⟨112, _⟩ => ⟨S_, .f32⟩
  | .hbm, ⟨113, _⟩ => ⟨S16384x64, .f32⟩
  | .hbm, ⟨114, _⟩ => ⟨S16384x64, .f32⟩
  | .hbm, ⟨115, _⟩ => ⟨S16384x64, .f32⟩
  | .hbm, ⟨116, _⟩ => ⟨S16384x64, .f32⟩
  | .hbm, ⟨117, _⟩ => ⟨S16384x64, .f32⟩
  | .hbm, ⟨118, _⟩ => ⟨S64x16384, .f32⟩
  | .hbm, ⟨119, _⟩ => ⟨S16384x16384, .f32⟩
  | .hbm, ⟨120, _⟩ => ⟨S16384x16384, .f32⟩
  | .hbm, ⟨121, _⟩ => ⟨S16384x16384, .f32⟩
  | .hbm, ⟨122, _⟩ => ⟨S_, .f32⟩
  | .hbm, ⟨123, _⟩ => ⟨S16384x16384, .f32⟩
  | .hbm, ⟨124, _⟩ => ⟨S16384x16384, .f32⟩
  | .hbm, ⟨125, _⟩ => ⟨S_, .f32⟩
  | .hbm, ⟨126, _⟩ => ⟨S16384x16384, .f32⟩
  | .hbm, ⟨127, _⟩ => ⟨S16384x16384, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_14 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_15 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_16 : Ref sig .tc := ⟨.hbm, 122, rfl⟩
abbrev main_v91 : Ref sig .tc := ⟨.hbm, 123, rfl⟩
abbrev main_v92 : Ref sig .tc := ⟨.hbm, 124, rfl⟩
abbrev main_cst_17 : Ref sig .tc := ⟨.hbm, 125, rfl⟩
abbrev main_v93 : Ref sig .tc := ⟨.hbm, 126, rfl⟩
abbrev main_v94 : Ref sig .tc := ⟨.hbm, 127, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S16384_S278528_d0 : Shape.Concatenates [S262144, S16384] S278528 0
  slices_S2x262144_S1x262144_1_0 : S2x262144.Slices ![1, 0] S1x262144
  bcast_S_S278528 : S_.BroadcastsInDim S278528 (![] : Fin 0 → Fin S278528.rank)
  bcast_S_S16384 : S_.BroadcastsInDim S16384 (![] : Fin 0 → Fin S16384.rank)
  bcast_S278528_S278528x1_0 : S278528.BroadcastsInDim S278528x1 (![0] : Fin 1 → Fin S278528x1.rank)
  bcast_S278528x1_S278528x128_0_1 : S278528x1.BroadcastsInDim S278528x128 (![0, 1] : Fin 2 → Fin S278528x128.rank)
  bcast_S_S16384x128 : S_.BroadcastsInDim S16384x128 (![] : Fin 0 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S278528x1_S278528x64_0_1 : S278528x1.BroadcastsInDim S278528x64 (![0, 1] : Fin 2 → Fin S278528x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  transposes_S16384x64_S64x16384_1_0 : S16384x64.Transposes [1, 0] S64x16384
  bcast_S_S16384x16384 : S_.BroadcastsInDim S16384x16384 (![] : Fin 0 → Fin S16384x16384.rank)
  scatter_S16384_S278528x1_S278528_n_0_0_1_wf : ScatterDims.WF S16384 S278528x1 S278528 [] [0] [0] 1
  gather_S16384_S278528x1_S278528_n_0_n_n_0_1_1_wf : GatherDims.WF S16384 S278528x1 S278528 [] [0] [] [0] [] 1 ![1]
  dot_S16384x256_S256x128_S16384x128_1_0_0_1_n_n_wf : DotDims.WF S16384x256 S256x128 S16384x128 [1] [0] [0] [1] [] []
  gather_S16384x128_S278528x1_S278528x128_1_0_n_n_0_1_1128_wf : GatherDims.WF S16384x128 S278528x1 S278528x128 [1] [0] [] [0] [] 1 ![1, 128]
  scatter_S16384x128_S278528x1_S278528x128_1_0_0_1_wf : ScatterDims.WF S16384x128 S278528x1 S278528x128 [1] [0] [0] 1
  dot_S16384x128_S128x64_S16384x64_1_0_0_1_n_n_wf : DotDims.WF S16384x128 S128x64 S16384x64 [1] [0] [0] [1] [] []
  gather_S16384x64_S278528x1_S278528x64_1_0_n_n_0_1_164_wf : GatherDims.WF S16384x64 S278528x1 S278528x64 [1] [0] [] [0] [] 1 ![1, 64]
  scatter_S16384x64_S278528x1_S278528x64_1_0_0_1_wf : ScatterDims.WF S16384x64 S278528x1 S278528x64 [1] [0] [0] 1
  dot_S16384x64_S64x16384_S16384x16384_1_0_0_1_n_n_wf : DotDims.WF S16384x64 S64x16384 S16384x16384 [1] [0] [0] [1] [] []

variable [Facts₀]

def scatter_S16384_S278528x1_S278528_n_0_0_1 : ScatterDims S16384 S278528x1 S278528 where
  updateWindowDims := []
  insertedWindowDims := [0]
  scatterDimsToOperandDims := [0]
  indexVectorDim := 1
  wf := scatter_S16384_S278528x1_S278528_n_0_0_1_wf
def gather_S16384_S278528x1_S278528_n_0_n_n_0_1_1 : GatherDims S16384 S278528x1 S278528 where
  offsetDims := []
  collapsedSliceDims := [0]
  operandBatchingDims := []
  startIndicesBatchingDims := []
  startIndexMap := [0]
  indexVectorDim := 1
  sliceSizes := ![1]
  wf := gather_S16384_S278528x1_S278528_n_0_n_n_0_1_1_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def gather_S16384x128_S278528x1_S278528x128_1_0_n_n_0_1_1128 : GatherDims S16384x128 S278528x1 S278528x128 where
  offsetDims := [1]
  collapsedSliceDims := [0]
  operandBatchingDims := []
  startIndicesBatchingDims := []
  startIndexMap := [0]
  indexVectorDim := 1
  sliceSizes := ![1, 128]
  wf := gather_S16384x128_S278528x1_S278528x128_1_0_n_n_0_1_1128_wf
def scatter_S16384x128_S278528x1_S278528x128_1_0_0_1 : ScatterDims S16384x128 S278528x1 S278528x128 where
  updateWindowDims := [1]
  insertedWindowDims := [0]
  scatterDimsToOperandDims := [0]
  indexVectorDim := 1
  wf := scatter_S16384x128_S278528x1_S278528x128_1_0_0_1_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def gather_S16384x64_S278528x1_S278528x64_1_0_n_n_0_1_164 : GatherDims S16384x64 S278528x1 S278528x64 where
  offsetDims := [1]
  collapsedSliceDims := [0]
  operandBatchingDims := []
  startIndicesBatchingDims := []
  startIndexMap := [0]
  indexVectorDim := 1
  sliceSizes := ![1, 64]
  wf := gather_S16384x64_S278528x1_S278528x64_1_0_n_n_0_1_164_wf
def scatter_S16384x64_S278528x1_S278528x64_1_0_0_1 : ScatterDims S16384x64 S278528x1 S278528x64 where
  updateWindowDims := [1]
  insertedWindowDims := [0]
  scatterDimsToOperandDims := [0]
  indexVectorDim := 1
  wf := scatter_S16384x64_S278528x1_S278528x64_1_0_0_1_wf
def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.LibStep.lean ====
import Idealize.ShloMosaic.Lib.Pipeline.FrameBody
import Idealize.ShloMosaic.Lib.Ring
import Idealize.ShloMosaic.Lib.Tactic

noncomputable section

namespace Cert.LibStep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U]
local notation "𝕄" => MT nD τ sig Unit Val ℕ U ℕ

/-- One point of a region whose body carries an accumulator, from a run of the body: the three inputs are found at their blocks and
    handed back; how the output buffer and the accumulator go in and come out is left open. -/
theorem body_step {D0 D1 D2 D3 : Type} {W : (PUnit → sProp 𝕄) → sProp 𝕄} {I0 I1 I2 Ai Ai' Ao Ao' R G O P3 : sProp 𝕄}
    {B0 : D0 → sProp 𝕄} {B1 : D1 → sProp 𝕄} {B2 : D2 → sProp 𝕄} {B3 O3i O3o : D3 → sProp 𝕄}
    (hrun : ∀ d K, iprop(iprop(I0 ∗ I1 ∗ I2) ∗ O3i d ∗ Ai ∗ (iprop(iprop(I0 ∗ I1 ∗ I2) ∗ O3o d ∗ Ao) -∗ K ⟨⟩)) ⊢ W K)
    (h0 : ∀ d, B0 d ⊢ I0) (h1 : ∀ d, B1 d ⊢ I1) (h2 : ∀ d, B2 d ⊢ I2) (h3i : ∀ d, B3 d ⊢ O3i d) (h3o : ∀ d, O3o d ⊢ P3)
    (hAi : Ai' ⊢ Ai) (hAo : Ao ⊢ Ao') :
    iprop(iprop(iprop(Ai' ∗ R) ∗ G) ∗ O ∗ (∃ d, B0 d) ∗ (∃ d, B1 d) ∗ (∃ d, B2 d) ∗ (∃ d, B3 d))
      ⊢ W (fun _ => iprop(iprop(iprop(Ao' ∗ R) ∗ G) ∗ O ∗ I0 ∗ I1 ∗ I2 ∗ P3)) := by
  iintro ⟨⟨⟨HA, HR⟩, Hg⟩, Ho, ⟨%d0, H0⟩, ⟨%d1, H1⟩, ⟨%d2, H2⟩, ⟨%d3, H3⟩⟩
  iapply (hrun d3 _)
  isplitl [H0 H1 H2]
  · isplitl [H0]; · iapply (h0 d0); iexact H0
    isplitl [H1]; · iapply (h1 d1); iexact H1
    iapply (h2 d2); iexact H2
  isplitl [H3]; · iapply (h3i d3); iexact H3
  isplitl [HA]; · iapply hAi; iexact HA
  iintro ⟨⟨H0, H1, H2⟩, H3, HA⟩
  isplitl [HA HR Hg]
  · isplitl [HA HR]
    · isplitl [HA]
      · iapply hAo; iexact HA
      iexact HR
    iexact Hg
  isplitl [Ho]; · iexact Ho
  isplitl [H0]; · iexact H0
  isplitl [H1]; · iexact H1
  isplitl [H2]; · iexact H2
  iapply (h3o d3); iexact H3

/-- A buffer holding a list of stored pieces that tile its block is owned at what they leave, read through any view. -/
theorem owns_tiled {c : Dev nD} {S : Shape} {e : EltTy} (a : Memref sig .tc .vmem S e) (v : View sig .tc .vmem S e) (L : List (View.Piece Val S e))
    [∀ e, Nonempty (Val e)] (h : View.Piece.tiledL L S.size = true) :
    (iprop(∃ f, a.view.loc (c : Thread nD τ) ↦[a.view.set]{fullShare} a.view.writes Val f L) : sProp 𝕄)
      ⊢ owns (c : Thread nD τ) a fullShare (v.read Val (v.writes Val v.junk L)) := by
  unfold owns
  iintro ⟨%f, H⟩
  iexists _; isplitr
  swap; · iexact H
  ipureintro; exact View.read_writes_of_cover _ _ _ _ _ (View.cover_of_tiledL L _ h)

/-- A whole memref holding the raw form of `x` holds `x`. -/
theorem owns_unread (c : Dev nD) {sp : Space} {sh : Shape} {e : EltTy} {m : Memref sig .tc sp sh e} (h : m.IsWhole) (x : sh.Idx → Val e) :
    (m.view.loc (c : Thread nD τ) ↦[m.view.set]{fullShare} h.unread x : sProp 𝕄)
      ⊢ iprop(∃ f, ⌜m.view.read Val f = x⌝ ∗ (m.view.loc (c : Thread nD τ) ↦[m.view.set]{fullShare} f)) := by
  iintro H; iexists _; isplitr
  · ipureintro; exact h.read_unread _
  · iexact H

end Cert.LibStep

end
-- ==== Proof.KB.Agg0Defs.lean ====

import proofs.«406303_j13073880449913_1_alg».proof.Proof.Gen.Kernel.Launch
import proofs.«406303_j13073880449913_1_alg».proof.Proof.Gen.Kernel.Skeleton
import proofs.«406303_j13073880449913_1_alg».proof.Proof.Gen.Kernel.Points
import proofs.«406303_j13073880449913_1_alg».proof.Proof.LibStep
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-- Window `w`'s block at point `t`, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end Regions

/-- The body's two branch conditions, and the points of the grid at which each holds. -/
abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 8 = 0 := by decide +kernel

abbrev cond0_1 (i : grid0.Coords) : Prop := k0_cond2 i = 1#1

theorem hcond0_1 : ∀ t : Fin cfg0.N, cond0_1 (grid0.coords t) ↔ t.val % 8 = 7 := by decide +kernel

theorem live0_in : ∀ t : Fin cfg0.N, cfg0.idle 0 (grid0.coords t) = false ∧ cfg0.idle 1 (grid0.coords t) = false ∧ cfg0.idle 2 (grid0.coords t) = false := by decide +kernel
theorem idle0_3 : ∀ t : Fin cfg0.N, ¬t.val % 8 = 7 → cfg0.idle 3 (grid0.coords t) = true ∧ (cfg0.win 3).flush t = false := by decide +kernel
theorem live0_3 : ∀ t : Fin cfg0.N, t.val % 8 = 7 → cfg0.idle 3 (grid0.coords t) = false := by decide +kernel

abbrev ms0_0 (t : Fin cfg0.N) : Memref sig .tc .vmem S2048x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)

abbrev scM0_0 : Memref sig .tc .vmem S2048x128 .f32 := Memref.whole cc0_scratch0

abbrev VS0_0 : View sig .tc .vmem S2048x128 .f32 := scM0_0.view

/-- The three input blocks held in their memrefs. -/
abbrev ins0 (c : Dev nD) (a2 : Memref sig .tc .vmem S2048x2048 .bf16) (a3 : Memref sig .tc .vmem S2048x128 .bf16) (a4 : Memref sig .tc .vmem S1x128 .f32)
    (x0 : Vec F S2048x2048 .bf16) (x1 : Vec F S2048x128 .bf16) (x2 : Vec F S1x128 .f32) : sProp 𝕄 :=
  iprop(owns (c : Thread nD τ) a2 fullShare x0 ∗ owns (c : Thread nD τ) a3 fullShare x1 ∗ owns (c : Thread nD τ) a4 fullShare x2)

abbrev Others0 (c : Dev nD) : sProp 𝕄 :=
  Pipeline.scopedRestBut (Ix := Unit) (Name := ℕ) (U := UR sig nD τ) (Lvl := ℕ) (Val := Elt F) spec0 c [cc0_scratch0]

/-- The region invariant with the call's own accumulator split off from the other scoped buffers. -/
theorem PhiA0_eq (c : Dev nD) :
    (Pipeline.ΦA spec0 c : sProp 𝕄)
      = iprop(iprop((∃ d, owns (c : Thread nD τ) scM0_0 fullShare d) ∗ Others0 (F := F) c) ∗ (∃ r, prngReg c r)) := by
  unfold Pipeline.ΦA
  rw [Pipeline.scopedRest_split_of_list spec0 c [cc0_scratch0] (by decide) (by decide)]
  simp only [bigSepL_singleton, scM0_0, owns_whole]; try rfl

end Cert.Kernel.Hand

end
-- ==== Proof.KB.Agg0RunA.lean ====
import proofs.«406303_j13073880449913_1_alg».proof.Proof.KB.Agg0Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun0_A (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond0_0 i) (hc1 : ¬cond0_1 i)
    (x0 : Vec F S2048x2048 .bf16) (x1 : Vec F S2048x128 .bf16) (x2 : Vec F S1x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(ins0 c arg2 arg3 arg4 x0 x1 x2 ∗ owns (c : Thread nD τ) arg5 fullShare xi3 ∗ (∃ d, owns (c : Thread nD τ) arg6 fullShare d)
            ∗ (iprop(ins0 c arg2 arg3 arg4 x0 x1 x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_agg_kernel i arg2 harg2 arg3 harg3 arg4 harg4 arg5 harg5 arg6 harg6) K } := by
  refine ⟨[], ?_, fun xi3 E K => ?run⟩
  case run =>
    simp only [cc0__gcn_agg_kernel_eq_skeleton]; unfold cc0__gcn_agg_kernel_skel
    unfold ins0 owns
    iintro ⟨⟨⟨%f0, %hf0, H0⟩, ⟨%f1, %hf1, H1⟩, ⟨%f2, %hf2, H2⟩⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0 H1 H2]
    · isplitl [H0]; · iapply Cert.LibStep.owns_unread c harg2; iexact H0
      isplitl [H1]; · iapply Cert.LibStep.owns_unread c harg3; iexact H1
      iapply Cert.LibStep.owns_unread c harg4; iexact H2
    isplitl [H3]; · iapply Cert.LibStep.owns_unread c harg5; iexact H3
    iexists _; iexact HS0

end Cert.Kernel.Hand

end
-- ==== Proof.KB.Agg0RunB.lean ====
import proofs.«406303_j13073880449913_1_alg».proof.Proof.KB.Agg0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun0_B (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : ¬cond0_1 i)
    (x0 : Vec F S2048x2048 .bf16) (x1 : Vec F S2048x128 .bf16) (x2 : Vec F S1x128 .f32) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(ins0 c arg2 arg3 arg4 x0 x1 x2 ∗ owns (c : Thread nD τ) arg5 fullShare xi3 ∗ owns (c : Thread nD τ) arg6 fullShare xs0
            ∗ (iprop(ins0 c arg2 arg3 arg4 x0 x1 x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_agg_kernel i arg2 harg2 arg3 harg3 arg4 harg4 arg5 harg5 arg6 harg6) K } := by
  refine ⟨[], ?_, fun xi3 E K => ?run⟩
  case run =>
    simp only [cc0__gcn_agg_kernel_eq_skeleton]; unfold cc0__gcn_agg_kernel_skel
    unfold ins0 owns
    iintro ⟨⟨⟨%f0, %hf0, H0⟩, ⟨%f1, %hf1, H1⟩, ⟨%f2, %hf2, H2⟩⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0 H1 H2]
    · isplitl [H0]; · iapply Cert.LibStep.owns_unread c harg2; iexact H0
      isplitl [H1]; · iapply Cert.LibStep.owns_unread c harg3; iexact H1
      iapply Cert.LibStep.owns_unread c harg4; iexact H2
    isplitl [H3]; · iapply Cert.LibStep.owns_unread c harg5; iexact H3
    iexists _; iexact HS0

end Cert.Kernel.Hand

end
-- ==== Proof.KB.Agg0RunC.lean ====
import proofs.«406303_j13073880449913_1_alg».proof.Proof.KB.Agg0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun0_C (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i)
    (x0 : Vec F S2048x2048 .bf16) (x1 : Vec F S2048x128 .bf16) (x2 : Vec F S1x128 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(ins0 c arg2 arg3 arg4 x0 x1 x2 ∗ (∃ d, owns (c : Thread nD τ) arg5 fullShare d) ∗ owns (c : Thread nD τ) arg6 fullShare xs0
            ∗ (iprop(ins0 c arg2 arg3 arg4 x0 x1 x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_agg_kernel i arg2 harg2 arg3 harg3 arg4 harg4 arg5 harg5 arg6 harg6) K } := by
  refine ⟨?_, ?_, fun E K => ?run⟩
  case run =>
    simp only [cc0__gcn_agg_kernel_eq_skeleton]; unfold cc0__gcn_agg_kernel_skel
    unfold ins0 owns
    iintro ⟨⟨⟨%f0, %hf0, H0⟩, ⟨%f1, %hf1, H1⟩, ⟨%f2, %hf2, H2⟩⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0 H1 H2]
    · isplitl [H0]; · iapply Cert.LibStep.owns_unread c harg2; iexact H0
      isplitl [H1]; · iapply Cert.LibStep.owns_unread c harg3; iexact H1
      iapply Cert.LibStep.owns_unread c harg4; iexact H2
    isplitl [H3]; · iexists _; iexact H3
    iexists _; iexact HS0

end Cert.Kernel.Hand

end
-- ==== Proof.KB.Agg0.lean ====
import proofs.«406303_j13073880449913_1_alg».proof.Proof.KB.Agg0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a list of stored pieces leaves in a block. -/
def rd0 (L : List (View.Piece (Elt F) S2048x128 .f32)) : Vec F S2048x128 .f32 :=
  VS0_0.read (Elt F) (VS0_0.writes (Elt F) VS0_0.junk L)

section Regions
variable (V : (c : Dev nD) → (b : Ref sig .tc) → Buf (Elt F) ((c : Thread nD τ).loc b)) (c : Dev nD)

/-- The body's run at point `t` in each control case, on the point's own memrefs and input blocks. -/
abbrev runA0 (t : Fin cfg0.N) (h0 : t.val % 8 = 0) :=
  kernelRun0_A c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => by have := (hcond0_1 t).mp h; omega) (iblk0 V c 0 t) (iblk0 V c 1 t) (iblk0 V c 2 t)
abbrev runB0 (t : Fin cfg0.N) (h0 : ¬t.val % 8 = 0) (h1 : ¬t.val % 8 = 7) (xs : Vec F S2048x128 .f32) :=
  kernelRun0_B c (grid0.coords t) (ms0_0 t) (hs0_0 t) (ms0_1 t) (hs0_1 t) (ms0_2 t) (hs0_2 t) (ms0_3 t) (hs0_3 t) scM0_0 (Memref.isWhole_whole _)
    (mt (hcond0_0 t).mp h0) (mt (hcond0_1 t).mp h1) (iblk0 V c 0 t) (iblk0 V c 1 t) (iblk0 V c 2 t) xs
abbrev runC0 (t : Fin cfg0.N) (h1 : t.val % 8 = 7) (xs : Vec F S2048x128 .f32) :=
  kernelRun0_C c (grid0.coords t) (ms0_0 t) (hs0_0 t) (ms0_1 t) (hs0_1 t) (ms0_2 t) (hs0_2 t) (ms0_3 t) (hs0_3 t) scM0_0 (Memref.isWhole_whole _)
    (fun h => by have := (hcond0_0 t).mp h; omega) ((hcond0_1 t).mpr h1) (iblk0 V c 0 t) (iblk0 V c 1 t) (iblk0 V c 2 t) xs

/-- The accumulator after point `n`: a reset point's own run, any other point's run over what the point before left. -/
def accAt0 : (n : ℕ) → n < cfg0.N → Vec F S2048x128 .f32
  | 0, hn => rd0 (runA0 V c ⟨0, hn⟩ (Nat.zero_mod 8)).2.1
  | n + 1, hn =>
    if h0 : (n + 1) % 8 = 0 then rd0 (runA0 V c ⟨n + 1, hn⟩ h0).2.1
    else if h1 : (n + 1) % 8 = 7 then rd0 (runC0 V c ⟨n + 1, hn⟩ h1 (accAt0 n (Nat.lt_of_succ_lt hn))).2.1
    else rd0 (runB0 V c ⟨n + 1, hn⟩ h0 h1 (accAt0 n (Nat.lt_of_succ_lt hn))).2.1

/-- What point `t` finds in the accumulator. -/
abbrev accIn0 (t : Fin cfg0.N) : Vec F S2048x128 .f32 := accAt0 V c (t.val - 1) ((Nat.sub_le _ _).trans_lt t.isLt)

/-- The output block after point `t`: stored at the last point of each group of eight only. -/
def outAt0 (t : Fin cfg0.N) : Vec F S2048x128 .f32 :=
  if h1 : t.val % 8 = 7 then rd0 (runC0 V c t h1 (accIn0 V c t)).1 else rd0 []

theorem accAt0_A (t : Fin cfg0.N) (h0 : t.val % 8 = 0) : accAt0 V c t.val t.isLt = rd0 (runA0 V c t h0).2.1 := by
  obtain ⟨_ | n, hn⟩ := t
  · rfl
  · exact dif_pos h0

theorem accAt0_B (t : Fin cfg0.N) (h0 : ¬t.val % 8 = 0) (h1 : ¬t.val % 8 = 7) :
    accAt0 V c t.val t.isLt = rd0 (runB0 V c t h0 h1 (accIn0 V c t)).2.1 := by
  obtain ⟨_ | n, hn⟩ := t
  · exact absurd (Nat.zero_mod 8) h0
  · exact (dif_neg h0).trans (dif_neg h1)

theorem accAt0_C (t : Fin cfg0.N) (h1 : t.val % 8 = 7) : accAt0 V c t.val t.isLt = rd0 (runC0 V c t h1 (accIn0 V c t)).2.1 := by
  obtain ⟨_ | n, hn⟩ := t
  · exact absurd (show 0 % 8 = 7 from h1) (by decide)
  · have h1' : (n + 1) % 8 = 7 := h1
    exact (dif_neg (by omega)).trans (dif_pos h1)

theorem outAt0_C (t : Fin cfg0.N) (h1 : t.val % 8 = 7) : outAt0 V c t = rd0 (runC0 V c t h1 (accIn0 V c t)).1 := dif_pos h1

/-- What the invariant says of the accumulator before position `n`: anything at first, then what the point before left. -/
def accΦ0 : (n : ℕ) → n ≤ cfg0.N → sProp 𝕄
  | 0, _ => iprop(∃ d, owns (c : Thread nD τ) scM0_0 fullShare d)
  | n + 1, hn => owns (c : Thread nD τ) scM0_0 fullShare (accAt0 V c n hn)

theorem accΦ0_any : ∀ (n : ℕ) (h : n ≤ cfg0.N), accΦ0 V c n h ⊢ iprop(∃ d, owns (c : Thread nD τ) scM0_0 fullShare d)
  | 0, _ => .rfl
  | _ + 1, _ => by unfold accΦ0; iintro H; iexists _; iexact H

theorem accΦ0_pos (t : Fin cfg0.N) (hz : t.val ≠ 0) : accΦ0 V c t.val t.isLt.le = owns (c : Thread nD τ) scM0_0 fullShare (accIn0 V c t) := by
  obtain ⟨_ | n, hn⟩ := t
  · exact absurd rfl hz
  · rfl

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := iprop(iprop(accΦ0 V c t.val (Nat.le_of_lt_succ t.isLt) ∗ Others0 (F := F) c) ∗ (∃ r, prngReg c r))
  q _ := fullShare
  owed _ := 0

theorem A_eq0 (w : Fin cfg0.W) : (dat0 V c).A w = V c (Pipeline.arrRef spec0 w) := rfl

theorem after0_3 (t : Fin cfg0.N) : (dat0 V c).after 3 t = outAt0 V c t := rfl

theorem before0_0 (t : Fin cfg0.N) (d) : (dat0 V c).before 0 t d = iblk0 V c 0 t :=
  ((dat0 V c).before_in_eq_fetched 0 rfl (fun _ => rfl) (fun _ _ _ => rfl) (fun _ => rfl) t d).trans rfl
theorem before0_1 (t : Fin cfg0.N) (d) : (dat0 V c).before 1 t d = iblk0 V c 1 t :=
  ((dat0 V c).before_in_eq_fetched 1 rfl (fun _ => rfl) (fun _ _ _ => rfl) (fun _ => rfl) t d).trans rfl
theorem before0_2 (t : Fin cfg0.N) (d) : (dat0 V c).before 2 t d = iblk0 V c 2 t :=
  ((dat0 V c).before_in_eq_fetched 2 rfl (fun _ => rfl) (fun _ _ _ => rfl) (fun _ => rfl) t d).trans rfl

/-- The body's obligation at every point: the closed forms of the two conditions say which case the point is in, and that case's run applies. -/
theorem body_obligation0 : BodyObligation (dat0 (F := F) V c) (defs₀ (F := F)) Variants.none () Set.univ := fun t => by
  rw [bigSep_W0, bigSep_W0]
  dsimp only
  simp only [before0_0, before0_1, before0_2]
  have hN : t.val < 64 := lt_of_lt_of_eq t.isLt (show cfg0.N = 64 from N_0)
  rw [show (dat0 V c).owesAt () t.succ = (dat0 V c).owesAt () t.castSucc from rfl]
  by_cases h1 : t.val % 8 = 7
  · simp only [show idle0 3 (grid0.coords t) = false from live0_3 t h1]
    rw [show (dat0 V c).after (3 : Fin 4) t = rd0 (runC0 V c t h1 (accIn0 V c t)).1 from outAt0_C V c t h1]
    show iprop(iprop(iprop(accΦ0 V c t.val t.isLt.le ∗ _) ∗ _) ∗ _) ⊢ wp _ _ _ _ (fun _ => iprop(iprop(iprop(owns (c : Thread nD τ) scM0_0 fullShare (accAt0 V c t.val t.isLt) ∗ _) ∗ _) ∗ _))
    rw [accΦ0_pos V c t (fun h => by omega), accAt0_C V c t h1]
    exact Cert.LibStep.body_step (W := fun K => wp frame (wpE (defs₀ (F := F)) Variants.none c none) Set.univ (bodyAt0 t) K) (fun d K => (runC0 V c t h1 _).2.2 Set.univ K) (fun _ => .rfl) (fun _ => .rfl) (fun _ => .rfl) (fun d => exists_intro _) (fun d => Cert.LibStep.owns_tiled _ VS0_0 _ (by sl_kernel_rfl)) .rfl
      (Cert.LibStep.owns_tiled _ VS0_0 _ (by sl_kernel_rfl))
  · simp only [show idle0 3 (grid0.coords t) = true from (idle0_3 t h1).1, show (win0 3).flush t = false from (idle0_3 t h1).2]
    show iprop(iprop(iprop(accΦ0 V c t.val t.isLt.le ∗ _) ∗ _) ∗ _) ⊢ wp _ _ _ _ (fun _ => iprop(iprop(iprop(owns (c : Thread nD τ) scM0_0 fullShare (accAt0 V c t.val t.isLt) ∗ _) ∗ _) ∗ _))
    by_cases h0 : t.val % 8 = 0
    · rw [accAt0_A V c t h0]
      exact Cert.LibStep.body_step (W := fun K => wp frame (wpE (defs₀ (F := F)) Variants.none c none) Set.univ (bodyAt0 t) K) (fun d K => (runA0 V c t h0).2.2 _ Set.univ K) (fun _ => .rfl) (fun _ => .rfl) (fun _ => .rfl) (fun d => .rfl) (fun d => by iintro H; iexists d; iexact H) (accΦ0_any V c _ _)
        (Cert.LibStep.owns_tiled _ VS0_0 _ (by sl_kernel_rfl))
    · rw [accΦ0_pos V c t (fun h => h0 (by rw [h])), accAt0_B V c t h0 h1]
      exact Cert.LibStep.body_step (W := fun K => wp frame (wpE (defs₀ (F := F)) Variants.none c none) Set.univ (bodyAt0 t) K) (fun d K => (runB0 V c t h0 h1 _).2.2 _ Set.univ K) (fun _ => .rfl) (fun _ => .rfl) (fun _ => .rfl) (fun d => .rfl) (fun d => by iintro H; iexists d; iexact H) .rfl
        (Cert.LibStep.owns_tiled _ VS0_0 _ (by sl_kernel_rfl))

theorem hin0 : Pipeline.ΦA spec0 c ⊢ (dat0 V c).Φ 0 := by
  rw [PhiA0_eq]; exact .rfl

theorem hout0 : (dat0 V c).Φ (Fin.last cfg0.N) ⊢ Pipeline.ΦA spec0 c := by
  rw [PhiA0_eq]; exact sep_mono (sep_mono (accΦ0_any V c _ _) .rfl) .rfl

end Regions

end Cert.Kernel.Hand

end
-- ==== Proof.KB.Agg1Defs.lean ====

import proofs.«406303_j13073880449913_1_alg».proof.Proof.Gen.Kernel.Launch
import proofs.«406303_j13073880449913_1_alg».proof.Proof.Gen.Kernel.Skeleton
import proofs.«406303_j13073880449913_1_alg».proof.Proof.Gen.Kernel.Points
import proofs.«406303_j13073880449913_1_alg».proof.Proof.LibStep
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-- Window `w`'s block at point `t`, read off its array as the region finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Regions

/-- The body's two branch conditions, and the points of the grid at which each holds. -/
abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 := by decide +kernel

abbrev cond1_1 (i : grid1.Coords) : Prop := k1_cond2 i = 1#1

theorem hcond1_1 : ∀ t : Fin cfg1.N, cond1_1 (grid1.coords t) ↔ t.val % 8 = 7 := by decide +kernel

theorem live1_in : ∀ t : Fin cfg1.N, cfg1.idle 0 (grid1.coords t) = false ∧ cfg1.idle 1 (grid1.coords t) = false ∧ cfg1.idle 2 (grid1.coords t) = false := by decide +kernel
theorem idle1_3 : ∀ t : Fin cfg1.N, ¬t.val % 8 = 7 → cfg1.idle 3 (grid1.coords t) = true ∧ (cfg1.win 3).flush t = false := by decide +kernel
theorem live1_3 : ∀ t : Fin cfg1.N, t.val % 8 = 7 → cfg1.idle 3 (grid1.coords t) = false := by decide +kernel

abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)

abbrev scM1_0 : Memref sig .tc .vmem S2048x64 .f32 := Memref.whole cc1_scratch0

abbrev VS1_0 : View sig .tc .vmem S2048x64 .f32 := scM1_0.view

/-- The three input blocks held in their memrefs. -/
abbrev ins1 (c : Dev nD) (a2 : Memref sig .tc .vmem S2048x2048 .bf16) (a3 : Memref sig .tc .vmem S2048x64 .bf16) (a4 : Memref sig .tc .vmem S1x64 .f32)
    (x0 : Vec F S2048x2048 .bf16) (x1 : Vec F S2048x64 .bf16) (x2 : Vec F S1x64 .f32) : sProp 𝕄 :=
  iprop(owns (c : Thread nD τ) a2 fullShare x0 ∗ owns (c : Thread nD τ) a3 fullShare x1 ∗ owns (c : Thread nD τ) a4 fullShare x2)

abbrev Others1 (c : Dev nD) : sProp 𝕄 :=
  Pipeline.scopedRestBut (Ix := Unit) (Name := ℕ) (U := UR sig nD τ) (Lvl := ℕ) (Val := Elt F) spec1 c [cc1_scratch0]

/-- The region invariant with the call's own accumulator split off from the other scoped buffers. -/
theorem PhiA1_eq (c : Dev nD) :
    (Pipeline.ΦA spec1 c : sProp 𝕄)
      = iprop(iprop((∃ d, owns (c : Thread nD τ) scM1_0 fullShare d) ∗ Others1 (F := F) c) ∗ (∃ r, prngReg c r)) := by
  unfold Pipeline.ΦA
  rw [Pipeline.scopedRest_split_of_list spec1 c [cc1_scratch0] (by decide) (by decide)]
  simp only [bigSepL_singleton, scM1_0, owns_whole]; try rfl

end Cert.Kernel.Hand

end
-- ==== Proof.KB.Agg1RunA.lean ====
import proofs.«406303_j13073880449913_1_alg».proof.Proof.KB.Agg1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun1_A (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .bf16) (x1 : Vec F S2048x64 .bf16) (x2 : Vec F S1x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(ins1 c arg2 arg3 arg4 x0 x1 x2 ∗ owns (c : Thread nD τ) arg5 fullShare xi3 ∗ (∃ d, owns (c : Thread nD τ) arg6 fullShare d)
            ∗ (iprop(ins1 c arg2 arg3 arg4 x0 x1 x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_agg_kernel i arg2 harg2 arg3 harg3 arg4 harg4 arg5 harg5 arg6 harg6) K } := by
  refine ⟨[], ?_, fun xi3 E K => ?run⟩
  case run =>
    simp only [cc1__gcn_agg_kernel_eq_skeleton]; unfold cc1__gcn_agg_kernel_skel
    unfold ins1 owns
    iintro ⟨⟨⟨%f0, %hf0, H0⟩, ⟨%f1, %hf1, H1⟩, ⟨%f2, %hf2, H2⟩⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0 H1 H2]
    · isplitl [H0]; · iapply Cert.LibStep.owns_unread c harg2; iexact H0
      isplitl [H1]; · iapply Cert.LibStep.owns_unread c harg3; iexact H1
      iapply Cert.LibStep.owns_unread c harg4; iexact H2
    isplitl [H3]; · iapply Cert.LibStep.owns_unread c harg5; iexact H3
    iexists _; iexact HS0

end Cert.Kernel.Hand

end
-- ==== Proof.KB.Agg1RunB.lean ====
import proofs.«406303_j13073880449913_1_alg».proof.Proof.KB.Agg1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun1_B (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .bf16) (x1 : Vec F S2048x64 .bf16) (x2 : Vec F S1x64 .f32) (xs0 : Vec F S2048x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(ins1 c arg2 arg3 arg4 x0 x1 x2 ∗ owns (c : Thread nD τ) arg5 fullShare xi3 ∗ owns (c : Thread nD τ) arg6 fullShare xs0
            ∗ (iprop(ins1 c arg2 arg3 arg4 x0 x1 x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_agg_kernel i arg2 harg2 arg3 harg3 arg4 harg4 arg5 harg5 arg6 harg6) K } := by
  refine ⟨[], ?_, fun xi3 E K => ?run⟩
  case run =>
    simp only [cc1__gcn_agg_kernel_eq_skeleton]; unfold cc1__gcn_agg_kernel_skel
    unfold ins1 owns
    iintro ⟨⟨⟨%f0, %hf0, H0⟩, ⟨%f1, %hf1, H1⟩, ⟨%f2, %hf2, H2⟩⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0 H1 H2]
    · isplitl [H0]; · iapply Cert.LibStep.owns_unread c harg2; iexact H0
      isplitl [H1]; · iapply Cert.LibStep.owns_unread c harg3; iexact H1
      iapply Cert.LibStep.owns_unread c harg4; iexact H2
    isplitl [H3]; · iapply Cert.LibStep.owns_unread c harg5; iexact H3
    iexists _; iexact HS0

end Cert.Kernel.Hand

end
-- ==== Proof.KB.Agg1RunC.lean ====
import proofs.«406303_j13073880449913_1_alg».proof.Proof.KB.Agg1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun1_C (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S1x64 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(ins1 c arg2 arg3 arg4 x0 x1 x2 ∗ (∃ d, owns (c : Thread nD τ) arg5 fullShare d) ∗ owns (c : Thread nD τ) arg6 fullShare xs0
            ∗ (iprop(ins1 c arg2 arg3 arg4 x0 x1 x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_agg_kernel i arg2 harg2 arg3 harg3 arg4 harg4 arg5 harg5 arg6 harg6) K } := by
  refine ⟨?_, ?_, fun E K => ?run⟩
  case run =>
    simp only [cc1__gcn_agg_kernel_eq_skeleton]; unfold cc1__gcn_agg_kernel_skel
    unfold ins1 owns
    iintro ⟨⟨⟨%f0, %hf0, H0⟩, ⟨%f1, %hf1, H1⟩, ⟨%f2, %hf2, H2⟩⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0 H1 H2]
    · isplitl [H0]; · iapply Cert.LibStep.owns_unread c harg2; iexact H0
      isplitl [H1]; · iapply Cert.LibStep.owns_unread c harg3; iexact H1
      iapply Cert.LibStep.owns_unread c harg4; iexact H2
    isplitl [H3]; · iexists _; iexact H3
    iexists _; iexact HS0

end Cert.Kernel.Hand

end
-- ==== Proof.KB.Agg1.lean ====
import proofs.«406303_j13073880449913_1_alg».proof.Proof.KB.Agg1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a list of stored pieces leaves in a block. -/
def rd1 (L : List (View.Piece (Elt F) S2048x64 .f32)) : Vec F S2048x64 .f32 :=
  VS1_0.read (Elt F) (VS1_0.writes (Elt F) VS1_0.junk L)

section Regions
variable (V : (c : Dev nD) → (b : Ref sig .tc) → Buf (Elt F) ((c : Thread nD τ).loc b)) (c : Dev nD)

/-- The body's run at point `t` in each control case, on the point's own memrefs and input blocks. -/
abbrev runA1 (t : Fin cfg1.N) (h0 : t.val % 8 = 0) :=
  kernelRun1_A c (grid1.coords t) (ms1_0 t) (hs1_0 t) (ms1_1 t) (hs1_1 t) (ms1_2 t) (hs1_2 t) (ms1_3 t) (hs1_3 t) scM1_0 (Memref.isWhole_whole _)
    ((hcond1_0 t).mpr h0) (fun h => by have := (hcond1_1 t).mp h; omega) (iblk1 V c 0 t) (iblk1 V c 1 t) (iblk1 V c 2 t)
abbrev runB1 (t : Fin cfg1.N) (h0 : ¬t.val % 8 = 0) (h1 : ¬t.val % 8 = 7) (xs : Vec F S2048x64 .f32) :=
  kernelRun1_B c (grid1.coords t) (ms1_0 t) (hs1_0 t) (ms1_1 t) (hs1_1 t) (ms1_2 t) (hs1_2 t) (ms1_3 t) (hs1_3 t) scM1_0 (Memref.isWhole_whole _)
    (mt (hcond1_0 t).mp h0) (mt (hcond1_1 t).mp h1) (iblk1 V c 0 t) (iblk1 V c 1 t) (iblk1 V c 2 t) xs
abbrev runC1 (t : Fin cfg1.N) (h1 : t.val % 8 = 7) (xs : Vec F S2048x64 .f32) :=
  kernelRun1_C c (grid1.coords t) (ms1_0 t) (hs1_0 t) (ms1_1 t) (hs1_1 t) (ms1_2 t) (hs1_2 t) (ms1_3 t) (hs1_3 t) scM1_0 (Memref.isWhole_whole _)
    (fun h => by have := (hcond1_0 t).mp h; omega) ((hcond1_1 t).mpr h1) (iblk1 V c 0 t) (iblk1 V c 1 t) (iblk1 V c 2 t) xs

/-- The accumulator after point `n`: a reset point's own run, any other point's run over what the point before left. -/
def accAt1 : (n : ℕ) → n < cfg1.N → Vec F S2048x64 .f32
  | 0, hn => rd1 (runA1 V c ⟨0, hn⟩ (Nat.zero_mod 8)).2.1
  | n + 1, hn =>
    if h0 : (n + 1) % 8 = 0 then rd1 (runA1 V c ⟨n + 1, hn⟩ h0).2.1
    else if h1 : (n + 1) % 8 = 7 then rd1 (runC1 V c ⟨n + 1, hn⟩ h1 (accAt1 n (Nat.lt_of_succ_lt hn))).2.1
    else rd1 (runB1 V c ⟨n + 1, hn⟩ h0 h1 (accAt1 n (Nat.lt_of_succ_lt hn))).2.1

/-- What point `t` finds in the accumulator. -/
abbrev accIn1 (t : Fin cfg1.N) : Vec F S2048x64 .f32 := accAt1 V c (t.val - 1) ((Nat.sub_le _ _).trans_lt t.isLt)

/-- The output block after point `t`: stored at the last point of each group of eight only. -/
def outAt1 (t : Fin cfg1.N) : Vec F S2048x64 .f32 :=
  if h1 : t.val % 8 = 7 then rd1 (runC1 V c t h1 (accIn1 V c t)).1 else rd1 []

theorem accAt1_A (t : Fin cfg1.N) (h0 : t.val % 8 = 0) : accAt1 V c t.val t.isLt = rd1 (runA1 V c t h0).2.1 := by
  obtain ⟨_ | n, hn⟩ := t
  · rfl
  · exact dif_pos h0

theorem accAt1_B (t : Fin cfg1.N) (h0 : ¬t.val % 8 = 0) (h1 : ¬t.val % 8 = 7) :
    accAt1 V c t.val t.isLt = rd1 (runB1 V c t h0 h1 (accIn1 V c t)).2.1 := by
  obtain ⟨_ | n, hn⟩ := t
  · exact absurd (Nat.zero_mod 8) h0
  · exact (dif_neg h0).trans (dif_neg h1)

theorem accAt1_C (t : Fin cfg1.N) (h1 : t.val % 8 = 7) : accAt1 V c t.val t.isLt = rd1 (runC1 V c t h1 (accIn1 V c t)).2.1 := by
  obtain ⟨_ | n, hn⟩ := t
  · exact absurd (show 0 % 8 = 7 from h1) (by decide)
  · have h1' : (n + 1) % 8 = 7 := h1
    exact (dif_neg (by omega)).trans (dif_pos h1)

theorem outAt1_C (t : Fin cfg1.N) (h1 : t.val % 8 = 7) : outAt1 V c t = rd1 (runC1 V c t h1 (accIn1 V c t)).1 := dif_pos h1

/-- What the invariant says of the accumulator before position `n`: anything at first, then what the point before left. -/
def accΦ1 : (n : ℕ) → n ≤ cfg1.N → sProp 𝕄
  | 0, _ => iprop(∃ d, owns (c : Thread nD τ) scM1_0 fullShare d)
  | n + 1, hn => owns (c : Thread nD τ) scM1_0 fullShare (accAt1 V c n hn)

theorem accΦ1_any : ∀ (n : ℕ) (h : n ≤ cfg1.N), accΦ1 V c n h ⊢ iprop(∃ d, owns (c : Thread nD τ) scM1_0 fullShare d)
  | 0, _ => .rfl
  | _ + 1, _ => by unfold accΦ1; iintro H; iexists _; iexact H

theorem accΦ1_pos (t : Fin cfg1.N) (hz : t.val ≠ 0) : accΦ1 V c t.val t.isLt.le = owns (c : Thread nD τ) scM1_0 fullShare (accIn1 V c t) := by
  obtain ⟨_ | n, hn⟩ := t
  · exact absurd rfl hz
  · rfl

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := iprop(iprop(accΦ1 V c t.val (Nat.le_of_lt_succ t.isLt) ∗ Others1 (F := F) c) ∗ (∃ r, prngReg c r))
  q _ := fullShare
  owed _ := 0

theorem A_eq1 (w : Fin cfg1.W) : (dat1 V c).A w = V c (Pipeline.arrRef spec1 w) := rfl

theorem after1_3 (t : Fin cfg1.N) : (dat1 V c).after 3 t = outAt1 V c t := rfl

theorem before1_0 (t : Fin cfg1.N) (d) : (dat1 V c).before 0 t d = iblk1 V c 0 t :=
  ((dat1 V c).before_in_eq_fetched 0 rfl (fun _ => rfl) (fun _ _ _ => rfl) (fun _ => rfl) t d).trans rfl
theorem before1_1 (t : Fin cfg1.N) (d) : (dat1 V c).before 1 t d = iblk1 V c 1 t :=
  ((dat1 V c).before_in_eq_fetched 1 rfl (fun _ => rfl) (fun _ _ _ => rfl) (fun _ => rfl) t d).trans rfl
theorem before1_2 (t : Fin cfg1.N) (d) : (dat1 V c).before 2 t d = iblk1 V c 2 t :=
  ((dat1 V c).before_in_eq_fetched 2 rfl (fun _ => rfl) (fun _ _ _ => rfl) (fun _ => rfl) t d).trans rfl

/-- The body's obligation at every point: the closed forms of the two conditions say which case the point is in, and that case's run applies. -/
theorem body_obligation1 : BodyObligation (dat1 (F := F) V c) (defs₀ (F := F)) Variants.none () Set.univ := fun t => by
  rw [bigSep_W1, bigSep_W1]
  dsimp only
  simp only [before1_0, before1_1, before1_2]
  have hN : t.val < 64 := lt_of_lt_of_eq t.isLt (show cfg1.N = 64 from N_1)
  rw [show (dat1 V c).owesAt () t.succ = (dat1 V c).owesAt () t.castSucc from rfl]
  by_cases h1 : t.val % 8 = 7
  · simp only [show idle1 3 (grid1.coords t) = false from live1_3 t h1]
    rw [show (dat1 V c).after (3 : Fin 4) t = rd1 (runC1 V c t h1 (accIn1 V c t)).1 from outAt1_C V c t h1]
    show iprop(iprop(iprop(accΦ1 V c t.val t.isLt.le ∗ _) ∗ _) ∗ _) ⊢ wp _ _ _ _ (fun _ => iprop(iprop(iprop(owns (c : Thread nD τ) scM1_0 fullShare (accAt1 V c t.val t.isLt) ∗ _) ∗ _) ∗ _))
    rw [accΦ1_pos V c t (fun h => by omega), accAt1_C V c t h1]
    exact Cert.LibStep.body_step (W := fun K => wp frame (wpE (defs₀ (F := F)) Variants.none c none) Set.univ (bodyAt1 t) K) (fun d K => (runC1 V c t h1 _).2.2 Set.univ K) (fun _ => .rfl) (fun _ => .rfl) (fun _ => .rfl) (fun d => exists_intro _) (fun d => Cert.LibStep.owns_tiled _ VS1_0 _ (by sl_kernel_rfl)) .rfl
      (Cert.LibStep.owns_tiled _ VS1_0 _ (by sl_kernel_rfl))
  · simp only [show idle1 3 (grid1.coords t) = true from (idle1_3 t h1).1, show (win1 3).flush t = false from (idle1_3 t h1).2]
    show iprop(iprop(iprop(accΦ1 V c t.val t.isLt.le ∗ _) ∗ _) ∗ _) ⊢ wp _ _ _ _ (fun _ => iprop(iprop(iprop(owns (c : Thread nD τ) scM1_0 fullShare (accAt1 V c t.val t.isLt) ∗ _) ∗ _) ∗ _))
    by_cases h0 : t.val % 8 = 0
    · rw [accAt1_A V c t h0]
      exact Cert.LibStep.body_step (W := fun K => wp frame (wpE (defs₀ (F := F)) Variants.none c none) Set.univ (bodyAt1 t) K) (fun d K => (runA1 V c t h0).2.2 _ Set.univ K) (fun _ => .rfl) (fun _ => .rfl) (fun _ => .rfl) (fun d => .rfl) (fun d => by iintro H; iexists d; iexact H) (accΦ1_any V c _ _)
        (Cert.LibStep.owns_tiled _ VS1_0 _ (by sl_kernel_rfl))
    · rw [accΦ1_pos V c t (fun h => h0 (by rw [h])), accAt1_B V c t h0 h1]
      exact Cert.LibStep.body_step (W := fun K => wp frame (wpE (defs₀ (F := F)) Variants.none c none) Set.univ (bodyAt1 t) K) (fun d K => (runB1 V c t h0 h1 _).2.2 _ Set.univ K) (fun _ => .rfl) (fun _ => .rfl) (fun _ => .rfl) (fun d => .rfl) (fun d => by iintro H; iexists d; iexact H) .rfl
        (Cert.LibStep.owns_tiled _ VS1_0 _ (by sl_kernel_rfl))

theorem hin1 : Pipeline.ΦA spec1 c ⊢ (dat1 V c).Φ 0 := by
  rw [PhiA1_eq]; exact .rfl

theorem hout1 : (dat1 V c).Φ (Fin.last cfg1.N) ⊢ Pipeline.ΦA spec1 c := by
  rw [PhiA1_eq]; exact sep_mono (sep_mono (accΦ1_any V c _ _) .rfl) .rfl

end Regions

end Cert.Kernel.Hand

end
-- ==== Proof.KB.Agg2Defs.lean ====

import proofs.«406303_j13073880449913_1_alg».proof.Proof.Gen.Kernel.Launch
import proofs.«406303_j13073880449913_1_alg».proof.Proof.Gen.Kernel.Skeleton
import proofs.«406303_j13073880449913_1_alg».proof.Proof.Gen.Kernel.Points
import proofs.«406303_j13073880449913_1_alg».proof.Proof.LibStep
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-- Window `w`'s block at point `t`, read off its array as the region finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Regions

/-- The body's two branch conditions, and the points of the grid at which each holds. -/
abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 8 = 0 := by decide +kernel

abbrev cond2_1 (i : grid2.Coords) : Prop := k2_cond2 i = 1#1

theorem hcond2_1 : ∀ t : Fin cfg2.N, cond2_1 (grid2.coords t) ↔ t.val % 8 = 7 := by decide +kernel

theorem live2_in : ∀ t : Fin cfg2.N, cfg2.idle 0 (grid2.coords t) = false ∧ cfg2.idle 1 (grid2.coords t) = false ∧ cfg2.idle 2 (grid2.coords t) = false := by decide +kernel
theorem idle2_3 : ∀ t : Fin cfg2.N, ¬t.val % 8 = 7 → cfg2.idle 3 (grid2.coords t) = true ∧ (cfg2.win 3).flush t = false := by decide +kernel
theorem live2_3 : ∀ t : Fin cfg2.N, t.val % 8 = 7 → cfg2.idle 3 (grid2.coords t) = false := by decide +kernel

abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x64 .f32 := win2_3.stage (cfg2.slots t 3)
abbrev hs2_3 (t : Fin cfg2.N) : (ms2_3 t).IsWhole := hstage2_3 ((cfg2.slots t 3).cast nbuf2_3)

abbrev scM2_0 : Memref sig .tc .vmem S2048x64 .f32 := Memref.whole cc2_scratch0

abbrev VS2_0 : View sig .tc .vmem S2048x64 .f32 := scM2_0.view

/-- The three input blocks held in their memrefs. -/
abbrev ins2 (c : Dev nD) (a2 : Memref sig .tc .vmem S2048x2048 .bf16) (a3 : Memref sig .tc .vmem S2048x64 .bf16) (a4 : Memref sig .tc .vmem S1x64 .f32)
    (x0 : Vec F S2048x2048 .bf16) (x1 : Vec F S2048x64 .bf16) (x2 : Vec F S1x64 .f32) : sProp 𝕄 :=
  iprop(owns (c : Thread nD τ) a2 fullShare x0 ∗ owns (c : Thread nD τ) a3 fullShare x1 ∗ owns (c : Thread nD τ) a4 fullShare x2)

abbrev Others2 (c : Dev nD) : sProp 𝕄 :=
  Pipeline.scopedRestBut (Ix := Unit) (Name := ℕ) (U := UR sig nD τ) (Lvl := ℕ) (Val := Elt F) spec2 c [cc2_scratch0]

/-- The region invariant with the call's own accumulator split off from the other scoped buffers. -/
theorem PhiA2_eq (c : Dev nD) :
    (Pipeline.ΦA spec2 c : sProp 𝕄)
      = iprop(iprop((∃ d, owns (c : Thread nD τ) scM2_0 fullShare d) ∗ Others2 (F := F) c) ∗ (∃ r, prngReg c r)) := by
  unfold Pipeline.ΦA
  rw [Pipeline.scopedRest_split_of_list spec2 c [cc2_scratch0] (by decide) (by decide)]
  simp only [bigSepL_singleton, scM2_0, owns_whole]; try rfl

end Cert.Kernel.Hand

end
-- ==== Proof.KB.Agg2RunA.lean ====
import proofs.«406303_j13073880449913_1_alg».proof.Proof.KB.Agg2Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun2_A (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond2_0 i) (hc1 : ¬cond2_1 i)
    (x0 : Vec F S2048x2048 .bf16) (x1 : Vec F S2048x64 .bf16) (x2 : Vec F S1x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(ins2 c arg2 arg3 arg4 x0 x1 x2 ∗ owns (c : Thread nD τ) arg5 fullShare xi3 ∗ (∃ d, owns (c : Thread nD τ) arg6 fullShare d)
            ∗ (iprop(ins2 c arg2 arg3 arg4 x0 x1 x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_agg_kernel i arg2 harg2 arg3 harg3 arg4 harg4 arg5 harg5 arg6 harg6) K } := by
  refine ⟨[], ?_, fun xi3 E K => ?run⟩
  case run =>
    simp only [cc2__gcn_agg_kernel_eq_skeleton]; unfold cc2__gcn_agg_kernel_skel
    unfold ins2 owns
    iintro ⟨⟨⟨%f0, %hf0, H0⟩, ⟨%f1, %hf1, H1⟩, ⟨%f2, %hf2, H2⟩⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0 H1 H2]
    · isplitl [H0]; · iapply Cert.LibStep.owns_unread c harg2; iexact H0
      isplitl [H1]; · iapply Cert.LibStep.owns_unread c harg3; iexact H1
      iapply Cert.LibStep.owns_unread c harg4; iexact H2
    isplitl [H3]; · iapply Cert.LibStep.owns_unread c harg5; iexact H3
    iexists _; iexact HS0

end Cert.Kernel.Hand

end
-- ==== Proof.KB.Agg2RunB.lean ====
import proofs.«406303_j13073880449913_1_alg».proof.Proof.KB.Agg2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun2_B (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : ¬cond2_1 i)
    (x0 : Vec F S2048x2048 .bf16) (x1 : Vec F S2048x64 .bf16) (x2 : Vec F S1x64 .f32) (xs0 : Vec F S2048x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(ins2 c arg2 arg3 arg4 x0 x1 x2 ∗ owns (c : Thread nD τ) arg5 fullShare xi3 ∗ owns (c : Thread nD τ) arg6 fullShare xs0
            ∗ (iprop(ins2 c arg2 arg3 arg4 x0 x1 x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_agg_kernel i arg2 harg2 arg3 harg3 arg4 harg4 arg5 harg5 arg6 harg6) K } := by
  refine ⟨[], ?_, fun xi3 E K => ?run⟩
  case run =>
    simp only [cc2__gcn_agg_kernel_eq_skeleton]; unfold cc2__gcn_agg_kernel_skel
    unfold ins2 owns
    iintro ⟨⟨⟨%f0, %hf0, H0⟩, ⟨%f1, %hf1, H1⟩, ⟨%f2, %hf2, H2⟩⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0 H1 H2]
    · isplitl [H0]; · iapply Cert.LibStep.owns_unread c harg2; iexact H0
      isplitl [H1]; · iapply Cert.LibStep.owns_unread c harg3; iexact H1
      iapply Cert.LibStep.owns_unread c harg4; iexact H2
    isplitl [H3]; · iapply Cert.LibStep.owns_unread c harg5; iexact H3
    iexists _; iexact HS0

end Cert.Kernel.Hand

end
-- ==== Proof.KB.Agg2RunC.lean ====
import proofs.«406303_j13073880449913_1_alg».proof.Proof.KB.Agg2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun2_C (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : cond2_1 i)
    (x0 : Vec F S2048x2048 .bf16) (x1 : Vec F S2048x64 .bf16) (x2 : Vec F S1x64 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(ins2 c arg2 arg3 arg4 x0 x1 x2 ∗ (∃ d, owns (c : Thread nD τ) arg5 fullShare d) ∗ owns (c : Thread nD τ) arg6 fullShare xs0
            ∗ (iprop(ins2 c arg2 arg3 arg4 x0 x1 x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_agg_kernel i arg2 harg2 arg3 harg3 arg4 harg4 arg5 harg5 arg6 harg6) K } := by
  refine ⟨?_, ?_, fun E K => ?run⟩
  case run =>
    simp only [cc2__gcn_agg_kernel_eq_skeleton]; unfold cc2__gcn_agg_kernel_skel
    unfold ins2 owns
    iintro ⟨⟨⟨%f0, %hf0, H0⟩, ⟨%f1, %hf1, H1⟩, ⟨%f2, %hf2, H2⟩⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0 H1 H2]
    · isplitl [H0]; · iapply Cert.LibStep.owns_unread c harg2; iexact H0
      isplitl [H1]; · iapply Cert.LibStep.owns_unread c harg3; iexact H1
      iapply Cert.LibStep.owns_unread c harg4; iexact H2
    isplitl [H3]; · iexists _; iexact H3
    iexists _; iexact HS0

end Cert.Kernel.Hand

end
-- ==== Proof.KB.Agg2.lean ====
import proofs.«406303_j13073880449913_1_alg».proof.Proof.KB.Agg2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a list of stored pieces leaves in a block. -/
def rd2 (L : List (View.Piece (Elt F) S2048x64 .f32)) : Vec F S2048x64 .f32 :=
  VS2_0.read (Elt F) (VS2_0.writes (Elt F) VS2_0.junk L)

section Regions
variable (V : (c : Dev nD) → (b : Ref sig .tc) → Buf (Elt F) ((c : Thread nD τ).loc b)) (c : Dev nD)

/-- The body's run at point `t` in each control case, on the point's own memrefs and input blocks. -/
abbrev runA2 (t : Fin cfg2.N) (h0 : t.val % 8 = 0) :=
  kernelRun2_A c (grid2.coords t) (ms2_0 t) (hs2_0 t) (ms2_1 t) (hs2_1 t) (ms2_2 t) (hs2_2 t) (ms2_3 t) (hs2_3 t) scM2_0 (Memref.isWhole_whole _)
    ((hcond2_0 t).mpr h0) (fun h => by have := (hcond2_1 t).mp h; omega) (iblk2 V c 0 t) (iblk2 V c 1 t) (iblk2 V c 2 t)
abbrev runB2 (t : Fin cfg2.N) (h0 : ¬t.val % 8 = 0) (h1 : ¬t.val % 8 = 7) (xs : Vec F S2048x64 .f32) :=
  kernelRun2_B c (grid2.coords t) (ms2_0 t) (hs2_0 t) (ms2_1 t) (hs2_1 t) (ms2_2 t) (hs2_2 t) (ms2_3 t) (hs2_3 t) scM2_0 (Memref.isWhole_whole _)
    (mt (hcond2_0 t).mp h0) (mt (hcond2_1 t).mp h1) (iblk2 V c 0 t) (iblk2 V c 1 t) (iblk2 V c 2 t) xs
abbrev runC2 (t : Fin cfg2.N) (h1 : t.val % 8 = 7) (xs : Vec F S2048x64 .f32) :=
  kernelRun2_C c (grid2.coords t) (ms2_0 t) (hs2_0 t) (ms2_1 t) (hs2_1 t) (ms2_2 t) (hs2_2 t) (ms2_3 t) (hs2_3 t) scM2_0 (Memref.isWhole_whole _)
    (fun h => by have := (hcond2_0 t).mp h; omega) ((hcond2_1 t).mpr h1) (iblk2 V c 0 t) (iblk2 V c 1 t) (iblk2 V c 2 t) xs

/-- The accumulator after point `n`: a reset point's own run, any other point's run over what the point before left. -/
def accAt2 : (n : ℕ) → n < cfg2.N → Vec F S2048x64 .f32
  | 0, hn => rd2 (runA2 V c ⟨0, hn⟩ (Nat.zero_mod 8)).2.1
  | n + 1, hn =>
    if h0 : (n + 1) % 8 = 0 then rd2 (runA2 V c ⟨n + 1, hn⟩ h0).2.1
    else if h1 : (n + 1) % 8 = 7 then rd2 (runC2 V c ⟨n + 1, hn⟩ h1 (accAt2 n (Nat.lt_of_succ_lt hn))).2.1
    else rd2 (runB2 V c ⟨n + 1, hn⟩ h0 h1 (accAt2 n (Nat.lt_of_succ_lt hn))).2.1

/-- What point `t` finds in the accumulator. -/
abbrev accIn2 (t : Fin cfg2.N) : Vec F S2048x64 .f32 := accAt2 V c (t.val - 1) ((Nat.sub_le _ _).trans_lt t.isLt)

/-- The output block after point `t`: stored at the last point of each group of eight only. -/
def outAt2 (t : Fin cfg2.N) : Vec F S2048x64 .f32 :=
  if h1 : t.val % 8 = 7 then rd2 (runC2 V c t h1 (accIn2 V c t)).1 else rd2 []

theorem accAt2_A (t : Fin cfg2.N) (h0 : t.val % 8 = 0) : accAt2 V c t.val t.isLt = rd2 (runA2 V c t h0).2.1 := by
  obtain ⟨_ | n, hn⟩ := t
  · rfl
  · exact dif_pos h0

theorem accAt2_B (t : Fin cfg2.N) (h0 : ¬t.val % 8 = 0) (h1 : ¬t.val % 8 = 7) :
    accAt2 V c t.val t.isLt = rd2 (runB2 V c t h0 h1 (accIn2 V c t)).2.1 := by
  obtain ⟨_ | n, hn⟩ := t
  · exact absurd (Nat.zero_mod 8) h0
  · exact (dif_neg h0).trans (dif_neg h1)

theorem accAt2_C (t : Fin cfg2.N) (h1 : t.val % 8 = 7) : accAt2 V c t.val t.isLt = rd2 (runC2 V c t h1 (accIn2 V c t)).2.1 := by
  obtain ⟨_ | n, hn⟩ := t
  · exact absurd (show 0 % 8 = 7 from h1) (by decide)
  · have h1' : (n + 1) % 8 = 7 := h1
    exact (dif_neg (by omega)).trans (dif_pos h1)

theorem outAt2_C (t : Fin cfg2.N) (h1 : t.val % 8 = 7) : outAt2 V c t = rd2 (runC2 V c t h1 (accIn2 V c t)).1 := dif_pos h1

/-- What the invariant says of the accumulator before position `n`: anything at first, then what the point before left. -/
def accΦ2 : (n : ℕ) → n ≤ cfg2.N → sProp 𝕄
  | 0, _ => iprop(∃ d, owns (c : Thread nD τ) scM2_0 fullShare d)
  | n + 1, hn => owns (c : Thread nD τ) scM2_0 fullShare (accAt2 V c n hn)

theorem accΦ2_any : ∀ (n : ℕ) (h : n ≤ cfg2.N), accΦ2 V c n h ⊢ iprop(∃ d, owns (c : Thread nD τ) scM2_0 fullShare d)
  | 0, _ => .rfl
  | _ + 1, _ => by unfold accΦ2; iintro H; iexists _; iexact H

theorem accΦ2_pos (t : Fin cfg2.N) (hz : t.val ≠ 0) : accΦ2 V c t.val t.isLt.le = owns (c : Thread nD τ) scM2_0 fullShare (accIn2 V c t) := by
  obtain ⟨_ | n, hn⟩ := t
  · exact absurd rfl hz
  · rfl

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ t := iprop(iprop(accΦ2 V c t.val (Nat.le_of_lt_succ t.isLt) ∗ Others2 (F := F) c) ∗ (∃ r, prngReg c r))
  q _ := fullShare
  owed _ := 0

theorem A_eq2 (w : Fin cfg2.W) : (dat2 V c).A w = V c (Pipeline.arrRef spec2 w) := rfl

theorem after2_3 (t : Fin cfg2.N) : (dat2 V c).after 3 t = outAt2 V c t := rfl

theorem before2_0 (t : Fin cfg2.N) (d) : (dat2 V c).before 0 t d = iblk2 V c 0 t :=
  ((dat2 V c).before_in_eq_fetched 0 rfl (fun _ => rfl) (fun _ _ _ => rfl) (fun _ => rfl) t d).trans rfl
theorem before2_1 (t : Fin cfg2.N) (d) : (dat2 V c).before 1 t d = iblk2 V c 1 t :=
  ((dat2 V c).before_in_eq_fetched 1 rfl (fun _ => rfl) (fun _ _ _ => rfl) (fun _ => rfl) t d).trans rfl
theorem before2_2 (t : Fin cfg2.N) (d) : (dat2 V c).before 2 t d = iblk2 V c 2 t :=
  ((dat2 V c).before_in_eq_fetched 2 rfl (fun _ => rfl) (fun _ _ _ => rfl) (fun _ => rfl) t d).trans rfl

/-- The body's obligation at every point: the closed forms of the two conditions say which case the point is in, and that case's run applies. -/
theorem body_obligation2 : BodyObligation (dat2 (F := F) V c) (defs₀ (F := F)) Variants.none () Set.univ := fun t => by
  rw [bigSep_W2, bigSep_W2]
  dsimp only
  simp only [before2_0, before2_1, before2_2]
  have hN : t.val < 64 := lt_of_lt_of_eq t.isLt (show cfg2.N = 64 from N_2)
  rw [show (dat2 V c).owesAt () t.succ = (dat2 V c).owesAt () t.castSucc from rfl]
  by_cases h1 : t.val % 8 = 7
  · simp only [show idle2 3 (grid2.coords t) = false from live2_3 t h1]
    rw [show (dat2 V c).after (3 : Fin 4) t = rd2 (runC2 V c t h1 (accIn2 V c t)).1 from outAt2_C V c t h1]
    show iprop(iprop(iprop(accΦ2 V c t.val t.isLt.le ∗ _) ∗ _) ∗ _) ⊢ wp _ _ _ _ (fun _ => iprop(iprop(iprop(owns (c : Thread nD τ) scM2_0 fullShare (accAt2 V c t.val t.isLt) ∗ _) ∗ _) ∗ _))
    rw [accΦ2_pos V c t (fun h => by omega), accAt2_C V c t h1]
    exact Cert.LibStep.body_step (W := fun K => wp frame (wpE (defs₀ (F := F)) Variants.none c none) Set.univ (bodyAt2 t) K) (fun d K => (runC2 V c t h1 _).2.2 Set.univ K) (fun _ => .rfl) (fun _ => .rfl) (fun _ => .rfl) (fun d => exists_intro _) (fun d => Cert.LibStep.owns_tiled _ VS2_0 _ (by sl_kernel_rfl)) .rfl
      (Cert.LibStep.owns_tiled _ VS2_0 _ (by sl_kernel_rfl))
  · simp only [show idle2 3 (grid2.coords t) = true from (idle2_3 t h1).1, show (win2 3).flush t = false from (idle2_3 t h1).2]
    show iprop(iprop(iprop(accΦ2 V c t.val t.isLt.le ∗ _) ∗ _) ∗ _) ⊢ wp _ _ _ _ (fun _ => iprop(iprop(iprop(owns (c : Thread nD τ) scM2_0 fullShare (accAt2 V c t.val t.isLt) ∗ _) ∗ _) ∗ _))
    by_cases h0 : t.val % 8 = 0
    · rw [accAt2_A V c t h0]
      exact Cert.LibStep.body_step (W := fun K => wp frame (wpE (defs₀ (F := F)) Variants.none c none) Set.univ (bodyAt2 t) K) (fun d K => (runA2 V c t h0).2.2 _ Set.univ K) (fun _ => .rfl) (fun _ => .rfl) (fun _ => .rfl) (fun d => .rfl) (fun d => by iintro H; iexists d; iexact H) (accΦ2_any V c _ _)
        (Cert.LibStep.owns_tiled _ VS2_0 _ (by sl_kernel_rfl))
    · rw [accΦ2_pos V c t (fun h => h0 (by rw [h])), accAt2_B V c t h0 h1]
      exact Cert.LibStep.body_step (W := fun K => wp frame (wpE (defs₀ (F := F)) Variants.none c none) Set.univ (bodyAt2 t) K) (fun d K => (runB2 V c t h0 h1 _).2.2 _ Set.univ K) (fun _ => .rfl) (fun _ => .rfl) (fun _ => .rfl) (fun d => .rfl) (fun d => by iintro H; iexists d; iexact H) .rfl
        (Cert.LibStep.owns_tiled _ VS2_0 _ (by sl_kernel_rfl))

theorem hin2 : Pipeline.ΦA spec2 c ⊢ (dat2 V c).Φ 0 := by
  rw [PhiA2_eq]; exact .rfl

theorem hout2 : (dat2 V c).Φ (Fin.last cfg2.N) ⊢ Pipeline.ΦA spec2 c := by
  rw [PhiA2_eq]; exact sep_mono (sep_mono (accΦ2_any V c _ _) .rfl) .rfl

end Regions

end Cert.Kernel.Hand

end
-- ==== Proof.KB.Dec3.lean ====
import proofs.«406303_j13073880449913_1_alg».proof.Proof.Gen.Kernel.Launch
import proofs.«406303_j13073880449913_1_alg».proof.Proof.Gen.Kernel.Skeleton
import proofs.«406303_j13073880449913_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_2 : Rect S2048x1024 := Rect.unit (s := S2048x1024) ![0, 0] S2048x1024.size inb_S2048x1024_S2048x1024_0_0

noncomputable def out3_2 (x0 : Vec F S2048x64 .bf16) (x1 : Vec F S1024x64 .bf16) : Vec F S2048x1024 .f32 :=
  View.canon [⟨r3_2, k3_pay1 (View.ld x0 (Rect.unit (s := S2048x64) ![0, 0] S2048x64.size inb_S2048x64_S2048x64_0_0))
    (View.ld x1 (Rect.unit (s := S1024x64) ![0, 0] S1024x64.size inb_S1024x64_S1024x64_0_0))⟩]

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl

-- The one stored piece covers the whole output block, so the block read back is out3_2 of the two input blocks.
theorem body_obligation3 (c : Dev nD) : BodyObligation (dat3 (F := F) V c) (defs₀ (F := F)) Variants.none () Set.univ := fun t => by
  rw [bigSep_W3, bigSep_W3]
  simp only [before3_0, before3_1]
  dsimp only [dat3, Dat.owesAt, Dat.bound]
  sl_whnfR [defs₀, Defs.onTc]
  simp only [cc3__decode_kernel_eq_skeleton]; unfold cc3__decode_kernel_skel owns
  iintro ⟨HΦ, Ho, ⟨%d0, %f0, %hf0, H0⟩, ⟨%d1, %f1, %hf1, H1⟩, ⟨%d2, %f2, -, H2⟩⟩
  sl_exec
  sl_step
  iframe HΦ Ho
  isplitl [H0]
  · iexists f0; isplitr; · ipureintro; exact hf0
    iexact H0
  isplitl [H1]
  · iexists f1; isplitr; · ipureintro; exact hf1
    iexact H1
  iexists _; isplitr
  swap; · iexact H2
  ipureintro
  rw [← hf0, ← hf1]
  exact View.read_writes_eq_canon _ _ _ (View.cover_of_tiled _ S2048x1024.size (by rfl))

-- The full share is its left half composed with its right half: the array both input windows read is held half and half.
theorem arrays3_iff (c : Dev nD) (W : (b : Ref sig .tc) → Buf (Elt F) ((c : Thread nD τ).loc b))
    (G : (w : Fin cfg3.W) → Buf (Elt F) ((cfg3.win w).arr.view.loc (c : Thread nD τ))) (hG : ∀ w, G w = W (Pipeline.arrRef spec3 w)) :
    (unscopedBufs c W : sProp 𝕄) ⊣⊢ iprop((dat3 V c).arrays G ∗ Pipeline.unscopedRest spec3 c W) := by
  rw [Pipeline.unscopedBufs_split₀ (fun _ : Unit => cfg3) () winFacts₀3.arr_unscoped c W]
  unfold Pipeline.arrBufs Dat.arrays Dat.share
  rw [show Finset.univ.image (Pipeline.arrRef spec3) = {main_v55, main_v56} by decide, bigSep_insert (by decide), bigSep_singleton, bigSep_W3,
    (arr_whole3 0).set_eq_univ, (arr_whole3 2).set_eq_univ, if_neg (by decide), if_neg (by decide), if_pos (by decide), hG, hG, hG]
  show iprop((_ ∗ _) ∗ _) ⊣⊢ _
  constructor
  · iintro ⟨⟨Hin, Hout⟩, Hrest⟩
    icases (pointsTo_share (PosShare.mem_left_op_right fullShare)).1 $$ Hin with ⟨H0, H1⟩
    iframe Hrest Hout
    isplitl [H0]; · iexact H0
    iexact H1
  · iintro ⟨⟨H0, H1, H2⟩, Hrest⟩
    iframe Hrest H2
    iapply (pointsTo_share (PosShare.mem_left_op_right fullShare)).2
    isplitl [H0]; · iexact H0
    iexact H1

theorem entry_arrays3' (c : Dev nD) :
    (unscopedBufs c (V c) : sProp 𝕄) ⊢ iprop((dat3 V c).arrays ((dat3 V c).arrAt · 0) ∗ Pipeline.unscopedRest spec3 c (V c)) :=
  (arrays3_iff V c (V c) _ fun _ => rfl).1

theorem exit_arrays3 (V' : (c : Dev nD) → (b : Ref sig .tc) → Buf (Elt F) ((c : Thread nD τ).loc b)) (c : Dev nD)
    (hF : ∀ w, (dat3 V c).arrAt w cfg3.N = V' c (Pipeline.arrRef spec3 w))
    (hrest : ∀ b, b ∉ Finset.univ.image (Pipeline.arrRef spec3) → V' c b = V c b) :
    iprop((dat3 V c).arrays ((dat3 V c).arrAt · cfg3.N) ∗ Pipeline.unscopedRest spec3 c (V c)) ⊢ (unscopedBufs c (V' c) : sProp 𝕄) := by
  have hR : (Pipeline.unscopedRest spec3 c (V c) : sProp 𝕄) = Pipeline.unscopedRest spec3 c (V' c) := by
    unfold Pipeline.unscopedRest
    exact bigSep_congr fun b hb => by rw [hrest b (Finset.mem_sdiff.mp hb).2]
  rw [hR]
  exact (arrays3_iff V c (V' c) _ hF).2

theorem arrAt3_0 (c : Dev nD) (n : ℕ) : (dat3 V c).arrAt 0 n = V c (Pipeline.arrRef spec3 0) :=
  (dat3 V c).arrAt_in 0 rfl n
theorem arrAt3_1 (c : Dev nD) (n : ℕ) : (dat3 V c).arrAt 1 n = V c (Pipeline.arrRef spec3 1) :=
  (dat3 V c).arrAt_in 1 rfl n

end Cert.Kernel.Hand

end
-- ==== Proof.LibRegion.lean ====
import Idealize.ShloMosaic.Lib.Pipeline.FrameBody
import Idealize.ShloMosaic.Lib.Pipeline.RegionsLoop
import Idealize.ShloMosaic.Lib.Tactic

noncomputable section

namespace Cert.LibRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type} {U : Type} [URA U]
variable {Λ₀ : Labels} {P : Type}

local notation "𝕄" => MT nD τ sig Unit Val ℕ U ℕ

/-- What a core holds beside its buffers between two items: the generator register, and nothing owed. -/
abbrev Beside (c : Dev nD) : sProp 𝕄 := iprop((∃ r, prngReg c r) ∗ ∃ W, owes (c : Thread nD τ) (0 : CellTallies nD τ sig Unit) W)

variable (cfgs : P → Cfg sig Λ₀)
  (pdats : (p : P) → (c : Dev nD) → Dat τ Val Unit ℕ U ℕ (cfgs p) c)
  (defs₀ : Defs nD τ sig Val Λ₀) (𝒱₀ : Variants)
  (L : GSem nD τ sig → Finset Unit) (lv : GSem nD τ sig → Unit → ℕ)

set_option backward.isDefEq.respectTransparency.types false in
/-- A region entered with every unscoped buffer at `V` and left with them at `V'`, from how its arrays leave the unscoped buffers and rejoin them. -/
def regionOfSplit (p : P) (win : WinFacts₀ (cfgs p).spec) (block_pos : ∀ w : Fin (cfgs p).W, 0 < ((cfgs p).spec w).block.numel)
    (stage_whole : ∀ (w : Fin (cfgs p).W) (s : Fin ((cfgs p).spec w).nbuf), (((cfgs p).spec w).stage s).IsWhole)
    (V V' : Dev nD → Valuation τ sig Val)
    (hbody : ∀ c, BodyObligationLoose (pdats p c) defs₀ 𝒱₀ () Set.univ)
    (hin : ∀ c, (ΦA (cfgs p).spec c : sProp 𝕄) ⊢ (pdats p c).Φ 0)
    (hout : ∀ c, (pdats p c).Φ (Fin.last (cfgs p).N) ⊢ (ΦA (cfgs p).spec c : sProp 𝕄))
    (hsplit : ∀ c, (unscopedBufs c (fun b => V c b) : sProp 𝕄) ⊢ iprop((pdats p c).arrays ((pdats p c).arrAt · 0) ∗ unscopedRest (cfgs p).spec c (fun b => V c b)))
    (hjoin : ∀ c, iprop((pdats p c).arrays ((pdats p c).arrAt · (cfgs p).N) ∗ unscopedRest (cfgs p).spec c (fun b => V c b)) ⊢ (unscopedBufs c (fun b => V' c b) : sProp 𝕄))
    (howed : ∀ c t, (pdats p c).owed t = 0 := by exact fun _ _ => rfl)
    (hrec : ∀ c, (pdats p c).recorded 0 = Set.univ := by exact fun _ => rfl) :
    RegionSeg (fun q => (cfgs q).toPCfg (Val := Val)) (fun q => (cfgs q).toPCfg_adm) pdats () defs₀ 𝒱₀ L lv p where
  win := win
  block_pos := block_pos
  stage_whole := stage_whole
  K := PEmpty
  osem k := k.elim
  ho := OwnSemFacts.none _
  hbody := hbody
  hwaits := hwaits_of_owed_zero _ _ _ _ L lv p howed
  pre c := iprop(StableHlo.held (c : Thread nD τ) (ucRefs τ sig) (V c) ∗ Beside c)
  post c := iprop(StableHlo.held (c : Thread nD τ) (ucRefs τ sig) (V' c) ∗ Beside c)
  X c := iprop(∃ r, prngReg c r)
  Y c := iprop(∃ r, prngReg c r)
  Z c := unscopedRest (Ix := Unit) (Name := ℕ) (U := U) (Lvl := ℕ) (cfgs p).spec c (fun b => V c b)
  hentry c := by
    rw [ownSems0_none]
    have hs := hsplit c
    rw [unscopedBufs_held] at hs
    iintro ⟨⟨Hub, Hp, HO⟩, -, -⟩
    ihave H := hs $$ Hub
    icases H with ⟨Ha, Hrest⟩
    imodintro
    isplitl [Ha]; · iexact Ha
    isplitr; · unfold prefHeld; rw [show (Finset.univ : Finset (Fin 0)) = ∅ from rfl, BI.bigSep_empty]; iempintro
    isplitl [HO]
    · unfold Dat.owesAt owesWithin; rw [howed c 0]
      icases HO with ⟨%W, HO⟩; iexists W; isplitr; · ipureintro; unfold Dat.bound; rw [hrec c]; exact fun _ _ => Or.inl trivial
      iexact HO
    isplitl [Hp]; · iexact Hp
    iexact Hrest
  hin c := by
    refine .trans ?_ (hin c); unfold ΦA
    iintro ⟨Hp, -, Hr⟩
    isplitl [Hr]; · iexact Hr
    iexact Hp
  hout c := by
    rw [ownSems0_none]; refine (hout c).trans ?_; unfold ΦA
    iintro ⟨Hr, Hp⟩
    isplitl [Hp]; · iexact Hp
    isplitr; · iempintro
    iexact Hr
  hexit c := by
    have hj := hjoin c
    rw [unscopedBufs_held] at hj
    iintro ⟨Ha, HO, HY, Hrest⟩
    imodintro
    isplitl [Ha Hrest]
    · iapply hj; isplitl [Ha] <;> iassumption
    isplitl [HY]; · iexact HY
    unfold Dat.owesAt owesWithin; rw [howed c]
    icases HO with ⟨%W, -, HO⟩; iexists W; iexact HO

set_option backward.isDefEq.respectTransparency.types false in
/-- The same for a region whose windows read distinct arrays, all held whole, of which only window `o`'s is written: `V'` is `V` with that array at its final contents. -/
def regionOfLaunch (p : P) (lf : LaunchFacts (nD := nD) (τ := τ) cfgs p) (V V' : Dev nD → Valuation τ sig Val)
    (hbody : ∀ c, BodyObligationLoose (pdats p c) defs₀ 𝒱₀ () Set.univ)
    (hin : ∀ c, (ΦA (cfgs p).spec c : sProp 𝕄) ⊢ (pdats p c).Φ 0)
    (hout : ∀ c, (pdats p c).Φ (Fin.last (cfgs p).N) ⊢ (ΦA (cfgs p).spec c : sProp 𝕄))
    (o : Fin (cfgs p).W)
    (hO : ∀ c, V' c (arrRef (cfgs p).spec o) = (pdats p c).arrAt o (cfgs p).N := by exact fun _ => Function.update_self ..)
    (hI : ∀ c (b : Ref sig .tc), b ≠ arrRef (cfgs p).spec o → V' c b = V c b := by exact fun _ _ h => Function.update_of_ne (StableHlo.devRef_ne_of_ne h) ..)
    (hinp : ∀ w, w ≠ o → ((cfgs p).win w).isOut = false := by decide)
    (hq : ∀ c w, (pdats p c).q w = fullShare := by exact fun _ _ => rfl)
    (hA : ∀ c w, (pdats p c).A w = V c (arrRef (cfgs p).spec w) := by exact fun _ _ => rfl)
    (howed : ∀ c t, (pdats p c).owed t = 0 := by exact fun _ _ => rfl)
    (hrec : ∀ c, (pdats p c).recorded 0 = Set.univ := by exact fun _ => rfl) :
    RegionSeg (fun q => (cfgs q).toPCfg (Val := Val)) (fun q => (cfgs q).toPCfg_adm) pdats () defs₀ 𝒱₀ L lv p :=
  regionOfSplit cfgs pdats defs₀ 𝒱₀ L lv p lf.win.to₀ lf.block_pos lf.stage_whole V V' hbody hin hout
    (fun c => arrays_of_unscopedBufs (p := p) (fun q => (cfgs q).toPCfg (Val := Val)) (fun q => (cfgs q).toPCfg_adm) pdats lf.win lf.arr_whole c
      ((pdats p c).share_full (hq c)) (fun b => V c b) (hA c))
    (fun c => unscopedBufs_of_arrays (p := p) (fun q => (cfgs q).toPCfg (Val := Val)) (fun q => (cfgs q).toPCfg_adm) (Ix := Unit) (Name := ℕ) (U := U) (Lvl := ℕ)
      lf.win lf.arr_whole c pdats ((pdats p c).share_full (hq c)) (fun b => V c b) (fun b => V' c b) ((pdats p c).arrAt · (cfgs p).N)
      (fun w => by
        by_cases h : w = o; · rw [h, hO]
        rw [(pdats p c).arrAt_in w (hinp w h), hA c w, hI c _ fun e => h (lf.win.arr_inj e)])
      (fun b hb => hI c b fun e => hb (Finset.mem_image.mpr ⟨o, Finset.mem_univ _, e.symm⟩))) howed hrec

omit cfgs pdats defs₀ 𝒱₀ in
theorem own_launch (u : U) : (ownU u : sProp 𝕄) ⊢ |={Set.univ}=> iprop(BI.own (emb₁ u) ∗ bigSep Finset.univ fun _ : Dev nD => (BI.emp : sProp 𝕄)) := by
  rw [BI.bigSep_emp_const]
  iintro Hu; imodintro
  isplitl [Hu]; · iapply (show (ownU u : sProp 𝕄) ⊢ BI.own (emb₁ u) from .rfl); iexact Hu
  iempintro

omit cfgs pdats defs₀ 𝒱₀ in
/-- What the launch deals a core is its unscoped buffers at the launch memory beside the rest state. -/
theorem launch_held (m : (ℓ : Loc nD τ sig) → Buf Val ℓ) (ρ : Dev nD → PrngReg) :
    iprop((bigSep Finset.univ fun c : Dev nD => iprop(unscopedBufs c (fun b => m ((c.tc : Thread nD τ).loc b)) ∗ unscopedSems0 c
        ∗ owes (c.tc : Thread nD τ) ((0 : Dev nD → CellTallies nD τ sig Unit) c) ∅ ∗ launchCred (0 : Dev nD → CellTallies nD τ sig Unit) c ∗ prngReg c (ρ c) ∗ (BI.emp : sProp 𝕄))) ∗ levAts L lv)
      ⊢ (|={Set.univ}=> bigSep Finset.univ fun c : Dev nD => iprop(StableHlo.held (c : Thread nD τ) (ucRefs τ sig) (fun b => m ((c : Thread nD τ).1, b)) ∗ Beside c) : sProp 𝕄) := by
  refine .trans (sep_mono (bigSep_mono (Ψ := fun c : Dev nD => iprop(StableHlo.held (c : Thread nD τ) (ucRefs τ sig) (fun b => m ((c : Thread nD τ).1, b)) ∗ Beside c)) fun c _ => ?_) .rfl) ?_
  · rw [← unscopedBufs_held (Ix := Unit) (Name := ℕ) (U := U) (Lvl := ℕ) c fun b => m ((c : Thread nD τ).1, b)]
    show (_ : sProp 𝕄) ⊢ _
    iintro ⟨Hb, -, HO, -, Hp, -⟩
    isplitl [Hb]; · iexact Hb
    isplitl [Hp]; · iexists _; iexact Hp
    iexists ∅; iexact HO
  iintro ⟨H, -⟩; imodintro; iexact H

omit cfgs pdats defs₀ 𝒱₀ L lv in
theorem held_congr {c : Dev nD} {V V' : Valuation τ sig Val} (e : V = V') :
    iprop(StableHlo.held (c : Thread nD τ) (ucRefs τ sig) V ∗ Beside c) ⊢ (iprop(StableHlo.held (c : Thread nD τ) (ucRefs τ sig) V' ∗ Beside c) : sProp 𝕄) := e ▸ .rfl

omit cfgs pdats defs₀ 𝒱₀ L lv in
/-- A final memory holds every unscoped buffer at the last valuation. -/
theorem held_read (c : Dev nD) (V : Valuation τ sig Val) (s' : Phys nD τ sig Val) :
    iprop(StableHlo.held (c : Thread nD τ) (ucRefs τ sig) V ∗ SI s')
      ⊢ (|={Set.univ}=> iprop(⌜∀ b ∈ ucRefs τ sig, s'.mem.mem ((c : Thread nD τ).1, b) = V b⌝ ∗ SI s') : sProp 𝕄) := by
  unfold StableHlo.held
  iintro ⟨Hh, HSI⟩
  imodintro
  iapply (pointsTo_read_all (ucRefs τ sig) (fun b => ((c : Thread nD τ).1, b)) V s')
  isplitl [Hh] <;> iassumption

end Cert.LibRegion

end
-- ==== Proof.KB.Segs.lean ====
import proofs.«406303_j13073880449913_1_alg».proof.Proof.Gen.Kernel.Regions
import proofs.«406303_j13073880449913_1_alg».proof.Proof.KB.Agg0
import proofs.«406303_j13073880449913_1_alg».proof.Proof.KB.Agg1
import proofs.«406303_j13073880449913_1_alg».proof.Proof.KB.Agg2
import proofs.«406303_j13073880449913_1_alg».proof.Proof.KB.Dec3
import proofs.«406303_j13073880449913_1_alg».proof.Proof.LibRegion

noncomputable section

namespace Cert.Kernel.Hand

open Cert.Kernel Cert.Kernel.Gen Cert.LibRegion
open Idealize.ShloMosaic Idealize.ShloMosaic.TcCoe
open Idealize.SL Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

abbrev Vof (W : Dev nD → Valuation τ sig (Elt F)) : (c : Dev nD) → (b : Ref sig .tc) → Buf (Elt F) ((c : Thread nD τ).loc b) := fun c b => W c b

abbrev 𝒱₀ : Variants := Variants.none
abbrev L : GSem nD τ sig → Finset Unit := fun _ => ∅
abbrev lv : GSem nD τ sig → Unit → ℕ := fun _ _ => 0

variable (m : (ℓ : Loc nD τ sig) → Buf (Elt F) ℓ)

def res0 (c : Dev nD) : Buf (Elt F) ((c : Thread nD τ).loc main_v41) := (dat0 (Vof (V3 m)) c).arrAt 3 cfg0.N
def U4 (c : Dev nD) : Valuation τ sig (Elt F) := Function.update (V3 m c) main_v41 (res0 m c)
def U5 (c : Dev nD) : Valuation τ sig (Elt F) := StableHlo.after hostOps1 (U4 m c)
def res1 (c : Dev nD) : Buf (Elt F) ((c : Thread nD τ).loc main_v45) := (dat1 (Vof (U5 m)) c).arrAt 3 cfg1.N
def U6 (c : Dev nD) : Valuation τ sig (Elt F) := Function.update (U5 m c) main_v45 (res1 m c)
def U7 (c : Dev nD) : Valuation τ sig (Elt F) := StableHlo.after hostOps2 (U6 m c)
def res2 (c : Dev nD) : Buf (Elt F) ((c : Thread nD τ).loc main_v49) := (dat2 (Vof (U7 m)) c).arrAt 3 cfg2.N
def U8 (c : Dev nD) : Valuation τ sig (Elt F) := Function.update (U7 m c) main_v49 (res2 m c)
def U9 (c : Dev nD) : Valuation τ sig (Elt F) := StableHlo.after hostOps3 (U8 m c)
def res3 (c : Dev nD) : Buf (Elt F) ((c : Thread nD τ).loc main_v56) := (dat3 (Vof (U9 m)) c).arrAt 2 cfg3.N
def U10 (c : Dev nD) : Valuation τ sig (Elt F) := Function.update (U9 m c) main_v56 (res3 m c)

/-- The regions' results as the unknowns of the generated valuations: with these, `VJ m (outsF m) = UJ m`. -/
def outsF : Outs (F := F) := fun J r c =>
  match J with
  | 4 => U4 m c r
  | 6 => U6 m c r
  | 8 => U8 m c r
  | 10 => U10 m c r
  | _ => V0 m c r

theorem V4_eq (c : Dev nD) : V4 m (outsF m) c = U4 m c := by
  show Function.update (V3 m c) main_v41 (U4 m c main_v41) = U4 m c
  unfold U4; rw [Function.update_self]
theorem V5_eq (c : Dev nD) : V5 m (outsF m) c = U5 m c := by
  show StableHlo.after hostOps1 (V4 m (outsF m) c) = _; rw [V4_eq]; rfl
theorem V6_eq (c : Dev nD) : V6 m (outsF m) c = U6 m c := by
  show Function.update (V5 m (outsF m) c) main_v45 (U6 m c main_v45) = U6 m c
  rw [V5_eq]; unfold U6; rw [Function.update_self]
theorem V7_eq (c : Dev nD) : V7 m (outsF m) c = U7 m c := by
  show StableHlo.after hostOps2 (V6 m (outsF m) c) = _; rw [V6_eq]; rfl
theorem V8_eq (c : Dev nD) : V8 m (outsF m) c = U8 m c := by
  show Function.update (V7 m (outsF m) c) main_v49 (U8 m c main_v49) = U8 m c
  rw [V7_eq]; unfold U8; rw [Function.update_self]
theorem V9_eq (c : Dev nD) : V9 m (outsF m) c = U9 m c := by
  show StableHlo.after hostOps3 (V8 m (outsF m) c) = _; rw [V8_eq]; rfl
theorem V10_eq (c : Dev nD) : V10 m (outsF m) c = U10 m c := by
  show Function.update (V9 m (outsF m) c) main_v56 (U10 m c main_v56) = U10 m c
  rw [V9_eq]; unfold U10; rw [Function.update_self]

def pdats : (p : Fin 4) → (c : Dev nD) → Dat τ (Elt F) Unit ℕ (UR sig nD τ) ℕ (Pipeline.pin (pcfgs (F := F)) adm p) c
  | ⟨0, _⟩ => fun c => dat0 (Vof (V3 m)) c
  | ⟨1, _⟩ => fun c => dat1 (Vof (U5 m)) c
  | ⟨2, _⟩ => fun c => dat2 (Vof (U7 m)) c
  | ⟨3, _⟩ => fun c => dat3 (Vof (U9 m)) c

def reg0 : Pipeline.RegionSeg (pcfgs (F := F)) adm (pdats m) () defs₀ 𝒱₀ L lv 0 :=
  regionOfLaunch cfgs (pdats m) defs₀ 𝒱₀ L lv 0 launch0 (V3 m) (U4 m) (fun c => (body_obligation0 (Vof (V3 m)) c).loose) (hin0 (Vof (V3 m))) (hout0 (Vof (V3 m))) 3
def reg1 : Pipeline.RegionSeg (pcfgs (F := F)) adm (pdats m) () defs₀ 𝒱₀ L lv 1 :=
  regionOfLaunch cfgs (pdats m) defs₀ 𝒱₀ L lv 1 launch1 (U5 m) (U6 m) (fun c => (body_obligation1 (Vof (U5 m)) c).loose) (hin1 (Vof (U5 m))) (hout1 (Vof (U5 m))) 3
def reg2 : Pipeline.RegionSeg (pcfgs (F := F)) adm (pdats m) () defs₀ 𝒱₀ L lv 2 :=
  regionOfLaunch cfgs (pdats m) defs₀ 𝒱₀ L lv 2 launch2 (U7 m) (U8 m) (fun c => (body_obligation2 (Vof (U7 m)) c).loose) (hin2 (Vof (U7 m))) (hout2 (Vof (U7 m))) 3
def reg3 : Pipeline.RegionSeg (pcfgs (F := F)) adm (pdats m) () defs₀ 𝒱₀ L lv 3 :=
  regionOfSplit cfgs (pdats m) defs₀ 𝒱₀ L lv 3 winFacts₀3 block_pos3 stage_whole3 (U9 m) (U10 m) (fun c => (body_obligation3 (Vof (U9 m)) c).loose) (fun _ => .rfl) (fun _ => .rfl)
    (entry_arrays3' (Vof (U9 m)))
    fun c => exit_arrays3 (Vof (U9 m)) (Vof (U10 m)) c
      (fun | 0 => (arrAt3_0 _ c _).trans (Function.update_of_ne (StableHlo.devRef_ne_of_ne (by decide : main_v55 ≠ main_v56)) ..).symm
           | 1 => (arrAt3_1 _ c _).trans (Function.update_of_ne (StableHlo.devRef_ne_of_ne (by decide : main_v55 ≠ main_v56)) ..).symm
           | 2 => show res3 m c = U10 m c main_v56 by unfold U10; rw [Function.update_self])
      fun b hb => Function.update_of_ne (StableHlo.devRef_ne_of_ne fun e => hb (by rw [e]; decide)) ..

/-- Every weakly fair execution of @main terminates with each unscoped buffer at the last valuation `U10 m c`: @main is its host stretches and the four regions in turn. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = U10 m c b) := by
  refine Pipeline.θ_run_regions_kit_dev (pcfgs (F := F)) adm (pdats m) () cellOf_inj emb₁ defs₀ 𝒱₀ L lv m ρ main
    (segs m (outsF m) 𝒱₀ L lv (fun _ c => Beside c) () (pdats m) (reg0 m) (reg1 m) (reg2 m) (reg3 m))
    (fun c Q => by rewrite [main_chain c, Seg.run_eq_chain]; exact .rfl)
    (fun c => by simp only [segs, Seg.pipes_host, Seg.pipes_region, Seg.pipes_nil]; decide) 0 (fun _ _ => rfl) (fun _ => iprop(emp)) _ (own_launch _)
    (T₀ := fun c => iprop(StableHlo.held (c : Thread nD τ) (Pipeline.ucRefs τ sig) (V0 m c) ∗ Beside c))
    (Tₙ := fun c => StableHlo.held (c : Thread nD τ) (Pipeline.ucRefs τ sig) (U10 m c))
    (hch := fun c => ⟨.rfl, .rfl, .rfl, .rfl, held_congr (V4_eq m c).symm, held_congr (V5_eq m c), held_congr (V6_eq m c).symm, held_congr (V7_eq m c),
      held_congr (V8_eq m c).symm, held_congr (V9_eq m c), sep_mono .rfl (by iintro ⟨-, HO⟩; iexact HO)⟩)
    (hinit := launch_held L lv m ρ) (QY := fun c s => ∀ b ∈ Pipeline.ucRefs τ sig, s.mem ((c : Thread nD τ).1, b) = U10 m c b)
    (hfin := fun c s' => held_read c _ s') (hQ := fun _ h => h)

end Cert.Kernel.Hand

end
-- ==== Proof.KB.FrameOf.lean ====
import proofs.«406303_j13073880449913_1_alg».proof.Proof.KB.Segs

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ)

/-- The run with the three results named and the nine arguments as launched: each is an unscoped buffer, so read off the last valuation, which no item changes at an argument. -/
theorem kernel_run (ρ : Dev nD → PrngReg) :
    θ_run defs (onTc (τ := τ) (main (F := F))) ⟨m, fun _ => 0, ρ⟩ (fun r => ∀ c : Dev nD,
      r.2.mem ((c.tc : Thread nD τ).loc main_v56) = U10 m c main_v56
      ∧ r.2.mem ((c.tc : Thread nD τ).loc main_v45) = U10 m c main_v45
      ∧ r.2.mem ((c.tc : Thread nD τ).loc main_v49) = U10 m c main_v49
      ∧ [main_arg0, main_arg1, main_arg2, main_arg3, main_arg4, main_arg5, main_arg6, main_arg7, main_arg8].Forall fun b =>
        r.2.mem ((c.tc : Thread nD τ).loc b) = m ((c.tc : Thread nD τ).loc b)) :=
  (θ_run defs _ _).mono (fun r h c => by
    have hb := fun (b : Ref sig .tc) (hs : ¬ (Proc.devRef .tc b : DevRef τ sig).isScoped) =>
      h c _ (Finset.mem_filter.mpr ⟨StableHlo.devRef_mem_tcRefs b, hs⟩)
    have ha := fun (b : Ref sig .tc) hs (e : V10 m (outsF m) c b = m ((c.tc : Thread nD τ).loc b)) => (hb b hs).trans ((V10_eq m c ▸ e :))
    exact ⟨hb _ (by decide), hb _ (by decide), hb _ (by decide),
      ha _ (by decide) (V10_main_arg0 ..), ha _ (by decide) (V10_main_arg1 ..), ha _ (by decide) (V10_main_arg2 ..),
      ha _ (by decide) (V10_main_arg3 ..), ha _ (by decide) (V10_main_arg4 ..), ha _ (by decide) (V10_main_arg5 ..),
      ha _ (by decide) (V10_main_arg6 ..), ha _ (by decide) (V10_main_arg7 ..), ha _ (by decide) (V10_main_arg8 ..)⟩)
    (run_all m ρ)

end Cert.Kernel.Hand

end
-- ==== Proof.KI.Agg0Defs.lean ====

import proofs.«406303_j13073880449913_1_alg».proof.Proof.Gen.KernelIdeal.Launch
import proofs.«406303_j13073880449913_1_alg».proof.Proof.Gen.KernelIdeal.Skeleton
import proofs.«406303_j13073880449913_1_alg».proof.Proof.Gen.KernelIdeal.Points
import proofs.«406303_j13073880449913_1_alg».proof.Proof.LibStep
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-- Window `w`'s block at point `t`, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end Regions

/-- The body's two branch conditions, and the points of the grid at which each holds. -/
abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 8 = 0 := by decide +kernel

abbrev cond0_1 (i : grid0.Coords) : Prop := k0_cond2 i = 1#1

theorem hcond0_1 : ∀ t : Fin cfg0.N, cond0_1 (grid0.coords t) ↔ t.val % 8 = 7 := by decide +kernel

theorem live0_in : ∀ t : Fin cfg0.N, cfg0.idle 0 (grid0.coords t) = false ∧ cfg0.idle 1 (grid0.coords t) = false ∧ cfg0.idle 2 (grid0.coords t) = false := by decide +kernel
theorem idle0_3 : ∀ t : Fin cfg0.N, ¬t.val % 8 = 7 → cfg0.idle 3 (grid0.coords t) = true ∧ (cfg0.win 3).flush t = false := by decide +kernel
theorem live0_3 : ∀ t : Fin cfg0.N, t.val % 8 = 7 → cfg0.idle 3 (grid0.coords t) = false := by decide +kernel

abbrev ms0_0 (t : Fin cfg0.N) : Memref sig .tc .vmem S2048x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)

abbrev scM0_0 : Memref sig .tc .vmem S2048x128 .f32 := Memref.whole cc0_scratch0

abbrev VS0_0 : View sig .tc .vmem S2048x128 .f32 := scM0_0.view

/-- The three input blocks held in their memrefs. -/
abbrev ins0 (c : Dev nD) (a2 : Memref sig .tc .vmem S2048x2048 .bf16) (a3 : Memref sig .tc .vmem S2048x128 .bf16) (a4 : Memref sig .tc .vmem S1x128 .f32)
    (x0 : Vec F S2048x2048 .bf16) (x1 : Vec F S2048x128 .bf16) (x2 : Vec F S1x128 .f32) : sProp 𝕄 :=
  iprop(owns (c : Thread nD τ) a2 fullShare x0 ∗ owns (c : Thread nD τ) a3 fullShare x1 ∗ owns (c : Thread nD τ) a4 fullShare x2)

abbrev Others0 (c : Dev nD) : sProp 𝕄 :=
  Pipeline.scopedRestBut (Ix := Unit) (Name := ℕ) (U := UR sig nD τ) (Lvl := ℕ) (Val := Elt F) spec0 c [cc0_scratch0]

/-- The region invariant with the call's own accumulator split off from the other scoped buffers. -/
theorem PhiA0_eq (c : Dev nD) :
    (Pipeline.ΦA spec0 c : sProp 𝕄)
      = iprop(iprop((∃ d, owns (c : Thread nD τ) scM0_0 fullShare d) ∗ Others0 (F := F) c) ∗ (∃ r, prngReg c r)) := by
  unfold Pipeline.ΦA
  rw [Pipeline.scopedRest_split_of_list spec0 c [cc0_scratch0] (by decide) (by decide)]
  simp only [bigSepL_singleton, scM0_0, owns_whole]; try rfl

end Cert.KernelIdeal.Hand

end
-- ==== Proof.KI.Agg0RunA.lean ====
import proofs.«406303_j13073880449913_1_alg».proof.Proof.KI.Agg0Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun0_A (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond0_0 i) (hc1 : ¬cond0_1 i)
    (x0 : Vec F S2048x2048 .bf16) (x1 : Vec F S2048x128 .bf16) (x2 : Vec F S1x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(ins0 c arg2 arg3 arg4 x0 x1 x2 ∗ owns (c : Thread nD τ) arg5 fullShare xi3 ∗ (∃ d, owns (c : Thread nD τ) arg6 fullShare d)
            ∗ (iprop(ins0 c arg2 arg3 arg4 x0 x1 x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_agg_kernel i arg2 harg2 arg3 harg3 arg4 harg4 arg5 harg5 arg6 harg6) K } := by
  refine ⟨[], ?_, fun xi3 E K => ?run⟩
  case run =>
    simp only [cc0__gcn_agg_kernel_eq_skeleton]; unfold cc0__gcn_agg_kernel_skel
    unfold ins0 owns
    iintro ⟨⟨⟨%f0, %hf0, H0⟩, ⟨%f1, %hf1, H1⟩, ⟨%f2, %hf2, H2⟩⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0 H1 H2]
    · isplitl [H0]; · iapply Cert.LibStep.owns_unread c harg2; iexact H0
      isplitl [H1]; · iapply Cert.LibStep.owns_unread c harg3; iexact H1
      iapply Cert.LibStep.owns_unread c harg4; iexact H2
    isplitl [H3]; · iapply Cert.LibStep.owns_unread c harg5; iexact H3
    iexists _; iexact HS0

end Cert.KernelIdeal.Hand

end
-- ==== Proof.KI.Agg0RunB.lean ====
import proofs.«406303_j13073880449913_1_alg».proof.Proof.KI.Agg0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun0_B (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : ¬cond0_1 i)
    (x0 : Vec F S2048x2048 .bf16) (x1 : Vec F S2048x128 .bf16) (x2 : Vec F S1x128 .f32) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(ins0 c arg2 arg3 arg4 x0 x1 x2 ∗ owns (c : Thread nD τ) arg5 fullShare xi3 ∗ owns (c : Thread nD τ) arg6 fullShare xs0
            ∗ (iprop(ins0 c arg2 arg3 arg4 x0 x1 x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_agg_kernel i arg2 harg2 arg3 harg3 arg4 harg4 arg5 harg5 arg6 harg6) K } := by
  refine ⟨[], ?_, fun xi3 E K => ?run⟩
  case run =>
    simp only [cc0__gcn_agg_kernel_eq_skeleton]; unfold cc0__gcn_agg_kernel_skel
    unfold ins0 owns
    iintro ⟨⟨⟨%f0, %hf0, H0⟩, ⟨%f1, %hf1, H1⟩, ⟨%f2, %hf2, H2⟩⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0 H1 H2]
    · isplitl [H0]; · iapply Cert.LibStep.owns_unread c harg2; iexact H0
      isplitl [H1]; · iapply Cert.LibStep.owns_unread c harg3; iexact H1
      iapply Cert.LibStep.owns_unread c harg4; iexact H2
    isplitl [H3]; · iapply Cert.LibStep.owns_unread c harg5; iexact H3
    iexists _; iexact HS0

end Cert.KernelIdeal.Hand

end
-- ==== Proof.KI.Agg0RunC.lean ====
import proofs.«406303_j13073880449913_1_alg».proof.Proof.KI.Agg0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun0_C (c : Dev nD) (i : grid0.Coords) (arg2 : Memref sig .tc .vmem S2048x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond0_0 i) (hc1 : cond0_1 i)
    (x0 : Vec F S2048x2048 .bf16) (x1 : Vec F S2048x128 .bf16) (x2 : Vec F S1x128 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(ins0 c arg2 arg3 arg4 x0 x1 x2 ∗ (∃ d, owns (c : Thread nD τ) arg5 fullShare d) ∗ owns (c : Thread nD τ) arg6 fullShare xs0
            ∗ (iprop(ins0 c arg2 arg3 arg4 x0 x1 x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__gcn_agg_kernel i arg2 harg2 arg3 harg3 arg4 harg4 arg5 harg5 arg6 harg6) K } := by
  refine ⟨?_, ?_, fun E K => ?run⟩
  case run =>
    simp only [cc0__gcn_agg_kernel_eq_skeleton]; unfold cc0__gcn_agg_kernel_skel
    unfold ins0 owns
    iintro ⟨⟨⟨%f0, %hf0, H0⟩, ⟨%f1, %hf1, H1⟩, ⟨%f2, %hf2, H2⟩⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0 H1 H2]
    · isplitl [H0]; · iapply Cert.LibStep.owns_unread c harg2; iexact H0
      isplitl [H1]; · iapply Cert.LibStep.owns_unread c harg3; iexact H1
      iapply Cert.LibStep.owns_unread c harg4; iexact H2
    isplitl [H3]; · iexists _; iexact H3
    iexists _; iexact HS0

end Cert.KernelIdeal.Hand

end
-- ==== Proof.KI.Agg0.lean ====
import proofs.«406303_j13073880449913_1_alg».proof.Proof.KI.Agg0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a list of stored pieces leaves in a block. -/
def rd0 (L : List (View.Piece (Elt F) S2048x128 .f32)) : Vec F S2048x128 .f32 :=
  VS0_0.read (Elt F) (VS0_0.writes (Elt F) VS0_0.junk L)

section Regions
variable (V : (c : Dev nD) → (b : Ref sig .tc) → Buf (Elt F) ((c : Thread nD τ).loc b)) (c : Dev nD)

/-- The body's run at point `t` in each control case, on the point's own memrefs and input blocks. -/
abbrev runA0 (t : Fin cfg0.N) (h0 : t.val % 8 = 0) :=
  kernelRun0_A c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => by have := (hcond0_1 t).mp h; omega) (iblk0 V c 0 t) (iblk0 V c 1 t) (iblk0 V c 2 t)
abbrev runB0 (t : Fin cfg0.N) (h0 : ¬t.val % 8 = 0) (h1 : ¬t.val % 8 = 7) (xs : Vec F S2048x128 .f32) :=
  kernelRun0_B c (grid0.coords t) (ms0_0 t) (hs0_0 t) (ms0_1 t) (hs0_1 t) (ms0_2 t) (hs0_2 t) (ms0_3 t) (hs0_3 t) scM0_0 (Memref.isWhole_whole _)
    (mt (hcond0_0 t).mp h0) (mt (hcond0_1 t).mp h1) (iblk0 V c 0 t) (iblk0 V c 1 t) (iblk0 V c 2 t) xs
abbrev runC0 (t : Fin cfg0.N) (h1 : t.val % 8 = 7) (xs : Vec F S2048x128 .f32) :=
  kernelRun0_C c (grid0.coords t) (ms0_0 t) (hs0_0 t) (ms0_1 t) (hs0_1 t) (ms0_2 t) (hs0_2 t) (ms0_3 t) (hs0_3 t) scM0_0 (Memref.isWhole_whole _)
    (fun h => by have := (hcond0_0 t).mp h; omega) ((hcond0_1 t).mpr h1) (iblk0 V c 0 t) (iblk0 V c 1 t) (iblk0 V c 2 t) xs

/-- The accumulator after point `n`: a reset point's own run, any other point's run over what the point before left. -/
def accAt0 : (n : ℕ) → n < cfg0.N → Vec F S2048x128 .f32
  | 0, hn => rd0 (runA0 V c ⟨0, hn⟩ (Nat.zero_mod 8)).2.1
  | n + 1, hn =>
    if h0 : (n + 1) % 8 = 0 then rd0 (runA0 V c ⟨n + 1, hn⟩ h0).2.1
    else if h1 : (n + 1) % 8 = 7 then rd0 (runC0 V c ⟨n + 1, hn⟩ h1 (accAt0 n (Nat.lt_of_succ_lt hn))).2.1
    else rd0 (runB0 V c ⟨n + 1, hn⟩ h0 h1 (accAt0 n (Nat.lt_of_succ_lt hn))).2.1

/-- What point `t` finds in the accumulator. -/
abbrev accIn0 (t : Fin cfg0.N) : Vec F S2048x128 .f32 := accAt0 V c (t.val - 1) ((Nat.sub_le _ _).trans_lt t.isLt)

/-- The output block after point `t`: stored at the last point of each group of eight only. -/
def outAt0 (t : Fin cfg0.N) : Vec F S2048x128 .f32 :=
  if h1 : t.val % 8 = 7 then rd0 (runC0 V c t h1 (accIn0 V c t)).1 else rd0 []

theorem accAt0_A (t : Fin cfg0.N) (h0 : t.val % 8 = 0) : accAt0 V c t.val t.isLt = rd0 (runA0 V c t h0).2.1 := by
  obtain ⟨_ | n, hn⟩ := t
  · rfl
  · exact dif_pos h0

theorem accAt0_B (t : Fin cfg0.N) (h0 : ¬t.val % 8 = 0) (h1 : ¬t.val % 8 = 7) :
    accAt0 V c t.val t.isLt = rd0 (runB0 V c t h0 h1 (accIn0 V c t)).2.1 := by
  obtain ⟨_ | n, hn⟩ := t
  · exact absurd (Nat.zero_mod 8) h0
  · exact (dif_neg h0).trans (dif_neg h1)

theorem accAt0_C (t : Fin cfg0.N) (h1 : t.val % 8 = 7) : accAt0 V c t.val t.isLt = rd0 (runC0 V c t h1 (accIn0 V c t)).2.1 := by
  obtain ⟨_ | n, hn⟩ := t
  · exact absurd (show 0 % 8 = 7 from h1) (by decide)
  · have h1' : (n + 1) % 8 = 7 := h1
    exact (dif_neg (by omega)).trans (dif_pos h1)

theorem outAt0_C (t : Fin cfg0.N) (h1 : t.val % 8 = 7) : outAt0 V c t = rd0 (runC0 V c t h1 (accIn0 V c t)).1 := dif_pos h1

/-- What the invariant says of the accumulator before position `n`: anything at first, then what the point before left. -/
def accΦ0 : (n : ℕ) → n ≤ cfg0.N → sProp 𝕄
  | 0, _ => iprop(∃ d, owns (c : Thread nD τ) scM0_0 fullShare d)
  | n + 1, hn => owns (c : Thread nD τ) scM0_0 fullShare (accAt0 V c n hn)

theorem accΦ0_any : ∀ (n : ℕ) (h : n ≤ cfg0.N), accΦ0 V c n h ⊢ iprop(∃ d, owns (c : Thread nD τ) scM0_0 fullShare d)
  | 0, _ => .rfl
  | _ + 1, _ => by unfold accΦ0; iintro H; iexists _; iexact H

theorem accΦ0_pos (t : Fin cfg0.N) (hz : t.val ≠ 0) : accΦ0 V c t.val t.isLt.le = owns (c : Thread nD τ) scM0_0 fullShare (accIn0 V c t) := by
  obtain ⟨_ | n, hn⟩ := t
  · exact absurd rfl hz
  · rfl

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := iprop(iprop(accΦ0 V c t.val (Nat.le_of_lt_succ t.isLt) ∗ Others0 (F := F) c) ∗ (∃ r, prngReg c r))
  q _ := fullShare
  owed _ := 0

theorem A_eq0 (w : Fin cfg0.W) : (dat0 V c).A w = V c (Pipeline.arrRef spec0 w) := rfl

theorem after0_3 (t : Fin cfg0.N) : (dat0 V c).after 3 t = outAt0 V c t := rfl

theorem before0_0 (t : Fin cfg0.N) (d) : (dat0 V c).before 0 t d = iblk0 V c 0 t :=
  ((dat0 V c).before_in_eq_fetched 0 rfl (fun _ => rfl) (fun _ _ _ => rfl) (fun _ => rfl) t d).trans rfl
theorem before0_1 (t : Fin cfg0.N) (d) : (dat0 V c).before 1 t d = iblk0 V c 1 t :=
  ((dat0 V c).before_in_eq_fetched 1 rfl (fun _ => rfl) (fun _ _ _ => rfl) (fun _ => rfl) t d).trans rfl
theorem before0_2 (t : Fin cfg0.N) (d) : (dat0 V c).before 2 t d = iblk0 V c 2 t :=
  ((dat0 V c).before_in_eq_fetched 2 rfl (fun _ => rfl) (fun _ _ _ => rfl) (fun _ => rfl) t d).trans rfl

/-- The body's obligation at every point: the closed forms of the two conditions say which case the point is in, and that case's run applies. -/
theorem body_obligation0 : BodyObligation (dat0 (F := F) V c) (defs₀ (F := F)) Variants.none () Set.univ := fun t => by
  rw [bigSep_W0, bigSep_W0]
  dsimp only
  simp only [before0_0, before0_1, before0_2]
  have hN : t.val < 64 := lt_of_lt_of_eq t.isLt (show cfg0.N = 64 from N_0)
  rw [show (dat0 V c).owesAt () t.succ = (dat0 V c).owesAt () t.castSucc from rfl]
  by_cases h1 : t.val % 8 = 7
  · simp only [show idle0 3 (grid0.coords t) = false from live0_3 t h1]
    rw [show (dat0 V c).after (3 : Fin 4) t = rd0 (runC0 V c t h1 (accIn0 V c t)).1 from outAt0_C V c t h1]
    show iprop(iprop(iprop(accΦ0 V c t.val t.isLt.le ∗ _) ∗ _) ∗ _) ⊢ wp _ _ _ _ (fun _ => iprop(iprop(iprop(owns (c : Thread nD τ) scM0_0 fullShare (accAt0 V c t.val t.isLt) ∗ _) ∗ _) ∗ _))
    rw [accΦ0_pos V c t (fun h => by omega), accAt0_C V c t h1]
    exact Cert.LibStep.body_step (W := fun K => wp frame (wpE (defs₀ (F := F)) Variants.none c none) Set.univ (bodyAt0 t) K) (fun d K => (runC0 V c t h1 _).2.2 Set.univ K) (fun _ => .rfl) (fun _ => .rfl) (fun _ => .rfl) (fun d => exists_intro _) (fun d => Cert.LibStep.owns_tiled _ VS0_0 _ (by sl_kernel_rfl)) .rfl
      (Cert.LibStep.owns_tiled _ VS0_0 _ (by sl_kernel_rfl))
  · simp only [show idle0 3 (grid0.coords t) = true from (idle0_3 t h1).1, show (win0 3).flush t = false from (idle0_3 t h1).2]
    show iprop(iprop(iprop(accΦ0 V c t.val t.isLt.le ∗ _) ∗ _) ∗ _) ⊢ wp _ _ _ _ (fun _ => iprop(iprop(iprop(owns (c : Thread nD τ) scM0_0 fullShare (accAt0 V c t.val t.isLt) ∗ _) ∗ _) ∗ _))
    by_cases h0 : t.val % 8 = 0
    · rw [accAt0_A V c t h0]
      exact Cert.LibStep.body_step (W := fun K => wp frame (wpE (defs₀ (F := F)) Variants.none c none) Set.univ (bodyAt0 t) K) (fun d K => (runA0 V c t h0).2.2 _ Set.univ K) (fun _ => .rfl) (fun _ => .rfl) (fun _ => .rfl) (fun d => .rfl) (fun d => by iintro H; iexists d; iexact H) (accΦ0_any V c _ _)
        (Cert.LibStep.owns_tiled _ VS0_0 _ (by sl_kernel_rfl))
    · rw [accΦ0_pos V c t (fun h => h0 (by rw [h])), accAt0_B V c t h0 h1]
      exact Cert.LibStep.body_step (W := fun K => wp frame (wpE (defs₀ (F := F)) Variants.none c none) Set.univ (bodyAt0 t) K) (fun d K => (runB0 V c t h0 h1 _).2.2 _ Set.univ K) (fun _ => .rfl) (fun _ => .rfl) (fun _ => .rfl) (fun d => .rfl) (fun d => by iintro H; iexists d; iexact H) .rfl
        (Cert.LibStep.owns_tiled _ VS0_0 _ (by sl_kernel_rfl))

theorem hin0 : Pipeline.ΦA spec0 c ⊢ (dat0 V c).Φ 0 := by
  rw [PhiA0_eq]; exact .rfl

theorem hout0 : (dat0 V c).Φ (Fin.last cfg0.N) ⊢ Pipeline.ΦA spec0 c := by
  rw [PhiA0_eq]; exact sep_mono (sep_mono (accΦ0_any V c _ _) .rfl) .rfl

end Regions

end Cert.KernelIdeal.Hand

end
-- ==== Proof.KI.Agg1Defs.lean ====
import proofs.«406303_j13073880449913_1_alg».proof.Proof.Gen.KernelIdeal.Launch
import proofs.«406303_j13073880449913_1_alg».proof.Proof.Gen.KernelIdeal.Skeleton
import proofs.«406303_j13073880449913_1_alg».proof.Proof.Gen.KernelIdeal.Points
import proofs.«406303_j13073880449913_1_alg».proof.Proof.LibStep
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-- Window `w`'s block at point `t`, read off its array as the region finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Regions

/-- The body's two branch conditions, and the points of the grid at which each holds. -/
abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 := by decide +kernel

abbrev cond1_1 (i : grid1.Coords) : Prop := k1_cond2 i = 1#1

theorem hcond1_1 : ∀ t : Fin cfg1.N, cond1_1 (grid1.coords t) ↔ t.val % 8 = 7 := by decide +kernel

theorem live1_in : ∀ t : Fin cfg1.N, cfg1.idle 0 (grid1.coords t) = false ∧ cfg1.idle 1 (grid1.coords t) = false ∧ cfg1.idle 2 (grid1.coords t) = false := by decide +kernel
theorem idle1_3 : ∀ t : Fin cfg1.N, ¬t.val % 8 = 7 → cfg1.idle 3 (grid1.coords t) = true ∧ (cfg1.win 3).flush t = false := by decide +kernel
theorem live1_3 : ∀ t : Fin cfg1.N, t.val % 8 = 7 → cfg1.idle 3 (grid1.coords t) = false := by decide +kernel

abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x64 .f32 := win1_3.stage (cfg1.slots t 3)
abbrev hs1_3 (t : Fin cfg1.N) : (ms1_3 t).IsWhole := hstage1_3 ((cfg1.slots t 3).cast nbuf1_3)

abbrev scM1_0 : Memref sig .tc .vmem S2048x64 .f32 := Memref.whole cc1_scratch0

abbrev VS1_0 : View sig .tc .vmem S2048x64 .f32 := scM1_0.view

/-- The three input blocks held in their memrefs. -/
abbrev ins1 (c : Dev nD) (a2 : Memref sig .tc .vmem S2048x2048 .bf16) (a3 : Memref sig .tc .vmem S2048x64 .bf16) (a4 : Memref sig .tc .vmem S1x64 .f32)
    (x0 : Vec F S2048x2048 .bf16) (x1 : Vec F S2048x64 .bf16) (x2 : Vec F S1x64 .f32) : sProp 𝕄 :=
  iprop(owns (c : Thread nD τ) a2 fullShare x0 ∗ owns (c : Thread nD τ) a3 fullShare x1 ∗ owns (c : Thread nD τ) a4 fullShare x2)

abbrev Others1 (c : Dev nD) : sProp 𝕄 :=
  Pipeline.scopedRestBut (Ix := Unit) (Name := ℕ) (U := UR sig nD τ) (Lvl := ℕ) (Val := Elt F) spec1 c [cc1_scratch0]

/-- The region invariant with the call's own accumulator split off from the other scoped buffers. -/
theorem PhiA1_eq (c : Dev nD) :
    (Pipeline.ΦA spec1 c : sProp 𝕄)
      = iprop(iprop((∃ d, owns (c : Thread nD τ) scM1_0 fullShare d) ∗ Others1 (F := F) c) ∗ (∃ r, prngReg c r)) := by
  unfold Pipeline.ΦA
  rw [Pipeline.scopedRest_split_of_list spec1 c [cc1_scratch0] (by decide) (by decide)]
  simp only [bigSepL_singleton, scM1_0, owns_whole]; try rfl

end Cert.KernelIdeal.Hand

end
-- ==== Proof.KI.Agg1RunA.lean ====
import proofs.«406303_j13073880449913_1_alg».proof.Proof.KI.Agg1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun1_A (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond1_0 i) (hc1 : ¬cond1_1 i)
    (x0 : Vec F S2048x2048 .bf16) (x1 : Vec F S2048x64 .bf16) (x2 : Vec F S1x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(ins1 c arg2 arg3 arg4 x0 x1 x2 ∗ owns (c : Thread nD τ) arg5 fullShare xi3 ∗ (∃ d, owns (c : Thread nD τ) arg6 fullShare d)
            ∗ (iprop(ins1 c arg2 arg3 arg4 x0 x1 x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_agg_kernel i arg2 harg2 arg3 harg3 arg4 harg4 arg5 harg5 arg6 harg6) K } := by
  refine ⟨[], ?_, fun xi3 E K => ?run⟩
  case run =>
    simp only [cc1__gcn_agg_kernel_eq_skeleton]; unfold cc1__gcn_agg_kernel_skel
    unfold ins1 owns
    iintro ⟨⟨⟨%f0, %hf0, H0⟩, ⟨%f1, %hf1, H1⟩, ⟨%f2, %hf2, H2⟩⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0 H1 H2]
    · isplitl [H0]; · iapply Cert.LibStep.owns_unread c harg2; iexact H0
      isplitl [H1]; · iapply Cert.LibStep.owns_unread c harg3; iexact H1
      iapply Cert.LibStep.owns_unread c harg4; iexact H2
    isplitl [H3]; · iapply Cert.LibStep.owns_unread c harg5; iexact H3
    iexists _; iexact HS0

end Cert.KernelIdeal.Hand

end
-- ==== Proof.KI.Agg1RunB.lean ====
import proofs.«406303_j13073880449913_1_alg».proof.Proof.KI.Agg1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun1_B (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : ¬cond1_1 i)
    (x0 : Vec F S2048x2048 .bf16) (x1 : Vec F S2048x64 .bf16) (x2 : Vec F S1x64 .f32) (xs0 : Vec F S2048x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(ins1 c arg2 arg3 arg4 x0 x1 x2 ∗ owns (c : Thread nD τ) arg5 fullShare xi3 ∗ owns (c : Thread nD τ) arg6 fullShare xs0
            ∗ (iprop(ins1 c arg2 arg3 arg4 x0 x1 x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_agg_kernel i arg2 harg2 arg3 harg3 arg4 harg4 arg5 harg5 arg6 harg6) K } := by
  refine ⟨[], ?_, fun xi3 E K => ?run⟩
  case run =>
    simp only [cc1__gcn_agg_kernel_eq_skeleton]; unfold cc1__gcn_agg_kernel_skel
    unfold ins1 owns
    iintro ⟨⟨⟨%f0, %hf0, H0⟩, ⟨%f1, %hf1, H1⟩, ⟨%f2, %hf2, H2⟩⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0 H1 H2]
    · isplitl [H0]; · iapply Cert.LibStep.owns_unread c harg2; iexact H0
      isplitl [H1]; · iapply Cert.LibStep.owns_unread c harg3; iexact H1
      iapply Cert.LibStep.owns_unread c harg4; iexact H2
    isplitl [H3]; · iapply Cert.LibStep.owns_unread c harg5; iexact H3
    iexists _; iexact HS0

end Cert.KernelIdeal.Hand

end
-- ==== Proof.KI.Agg1RunC.lean ====
import proofs.«406303_j13073880449913_1_alg».proof.Proof.KI.Agg1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun1_C (c : Dev nD) (i : grid1.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond1_0 i) (hc1 : cond1_1 i)
    (x0 : Vec F S2048x2048 .bf16) (x1 : Vec F S2048x64 .bf16) (x2 : Vec F S1x64 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(ins1 c arg2 arg3 arg4 x0 x1 x2 ∗ (∃ d, owns (c : Thread nD τ) arg5 fullShare d) ∗ owns (c : Thread nD τ) arg6 fullShare xs0
            ∗ (iprop(ins1 c arg2 arg3 arg4 x0 x1 x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gcn_agg_kernel i arg2 harg2 arg3 harg3 arg4 harg4 arg5 harg5 arg6 harg6) K } := by
  refine ⟨?_, ?_, fun E K => ?run⟩
  case run =>
    simp only [cc1__gcn_agg_kernel_eq_skeleton]; unfold cc1__gcn_agg_kernel_skel
    unfold ins1 owns
    iintro ⟨⟨⟨%f0, %hf0, H0⟩, ⟨%f1, %hf1, H1⟩, ⟨%f2, %hf2, H2⟩⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0 H1 H2]
    · isplitl [H0]; · iapply Cert.LibStep.owns_unread c harg2; iexact H0
      isplitl [H1]; · iapply Cert.LibStep.owns_unread c harg3; iexact H1
      iapply Cert.LibStep.owns_unread c harg4; iexact H2
    isplitl [H3]; · iexists _; iexact H3
    iexists _; iexact HS0

end Cert.KernelIdeal.Hand

end
-- ==== Proof.KI.Agg1.lean ====
import proofs.«406303_j13073880449913_1_alg».proof.Proof.KI.Agg1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a list of stored pieces leaves in a block. -/
def rd1 (L : List (View.Piece (Elt F) S2048x64 .f32)) : Vec F S2048x64 .f32 :=
  VS1_0.read (Elt F) (VS1_0.writes (Elt F) VS1_0.junk L)

section Regions
variable (V : (c : Dev nD) → (b : Ref sig .tc) → Buf (Elt F) ((c : Thread nD τ).loc b)) (c : Dev nD)

/-- The body's run at point `t` in each control case, on the point's own memrefs and input blocks. -/
abbrev runA1 (t : Fin cfg1.N) (h0 : t.val % 8 = 0) :=
  kernelRun1_A c (grid1.coords t) (ms1_0 t) (hs1_0 t) (ms1_1 t) (hs1_1 t) (ms1_2 t) (hs1_2 t) (ms1_3 t) (hs1_3 t) scM1_0 (Memref.isWhole_whole _)
    ((hcond1_0 t).mpr h0) (fun h => by have := (hcond1_1 t).mp h; omega) (iblk1 V c 0 t) (iblk1 V c 1 t) (iblk1 V c 2 t)
abbrev runB1 (t : Fin cfg1.N) (h0 : ¬t.val % 8 = 0) (h1 : ¬t.val % 8 = 7) (xs : Vec F S2048x64 .f32) :=
  kernelRun1_B c (grid1.coords t) (ms1_0 t) (hs1_0 t) (ms1_1 t) (hs1_1 t) (ms1_2 t) (hs1_2 t) (ms1_3 t) (hs1_3 t) scM1_0 (Memref.isWhole_whole _)
    (mt (hcond1_0 t).mp h0) (mt (hcond1_1 t).mp h1) (iblk1 V c 0 t) (iblk1 V c 1 t) (iblk1 V c 2 t) xs
abbrev runC1 (t : Fin cfg1.N) (h1 : t.val % 8 = 7) (xs : Vec F S2048x64 .f32) :=
  kernelRun1_C c (grid1.coords t) (ms1_0 t) (hs1_0 t) (ms1_1 t) (hs1_1 t) (ms1_2 t) (hs1_2 t) (ms1_3 t) (hs1_3 t) scM1_0 (Memref.isWhole_whole _)
    (fun h => by have := (hcond1_0 t).mp h; omega) ((hcond1_1 t).mpr h1) (iblk1 V c 0 t) (iblk1 V c 1 t) (iblk1 V c 2 t) xs

/-- The accumulator after point `n`: a reset point's own run, any other point's run over what the point before left. -/
def accAt1 : (n : ℕ) → n < cfg1.N → Vec F S2048x64 .f32
  | 0, hn => rd1 (runA1 V c ⟨0, hn⟩ (Nat.zero_mod 8)).2.1
  | n + 1, hn =>
    if h0 : (n + 1) % 8 = 0 then rd1 (runA1 V c ⟨n + 1, hn⟩ h0).2.1
    else if h1 : (n + 1) % 8 = 7 then rd1 (runC1 V c ⟨n + 1, hn⟩ h1 (accAt1 n (Nat.lt_of_succ_lt hn))).2.1
    else rd1 (runB1 V c ⟨n + 1, hn⟩ h0 h1 (accAt1 n (Nat.lt_of_succ_lt hn))).2.1

/-- What point `t` finds in the accumulator. -/
abbrev accIn1 (t : Fin cfg1.N) : Vec F S2048x64 .f32 := accAt1 V c (t.val - 1) ((Nat.sub_le _ _).trans_lt t.isLt)

/-- The output block after point `t`: stored at the last point of each group of eight only. -/
def outAt1 (t : Fin cfg1.N) : Vec F S2048x64 .f32 :=
  if h1 : t.val % 8 = 7 then rd1 (runC1 V c t h1 (accIn1 V c t)).1 else rd1 []

theorem accAt1_A (t : Fin cfg1.N) (h0 : t.val % 8 = 0) : accAt1 V c t.val t.isLt = rd1 (runA1 V c t h0).2.1 := by
  obtain ⟨_ | n, hn⟩ := t
  · rfl
  · exact dif_pos h0

theorem accAt1_B (t : Fin cfg1.N) (h0 : ¬t.val % 8 = 0) (h1 : ¬t.val % 8 = 7) :
    accAt1 V c t.val t.isLt = rd1 (runB1 V c t h0 h1 (accIn1 V c t)).2.1 := by
  obtain ⟨_ | n, hn⟩ := t
  · exact absurd (Nat.zero_mod 8) h0
  · exact (dif_neg h0).trans (dif_neg h1)

theorem accAt1_C (t : Fin cfg1.N) (h1 : t.val % 8 = 7) : accAt1 V c t.val t.isLt = rd1 (runC1 V c t h1 (accIn1 V c t)).2.1 := by
  obtain ⟨_ | n, hn⟩ := t
  · exact absurd (show 0 % 8 = 7 from h1) (by decide)
  · have h1' : (n + 1) % 8 = 7 := h1
    exact (dif_neg (by omega)).trans (dif_pos h1)

theorem outAt1_C (t : Fin cfg1.N) (h1 : t.val % 8 = 7) : outAt1 V c t = rd1 (runC1 V c t h1 (accIn1 V c t)).1 := dif_pos h1

/-- What the invariant says of the accumulator before position `n`: anything at first, then what the point before left. -/
def accΦ1 : (n : ℕ) → n ≤ cfg1.N → sProp 𝕄
  | 0, _ => iprop(∃ d, owns (c : Thread nD τ) scM1_0 fullShare d)
  | n + 1, hn => owns (c : Thread nD τ) scM1_0 fullShare (accAt1 V c n hn)

theorem accΦ1_any : ∀ (n : ℕ) (h : n ≤ cfg1.N), accΦ1 V c n h ⊢ iprop(∃ d, owns (c : Thread nD τ) scM1_0 fullShare d)
  | 0, _ => .rfl
  | _ + 1, _ => by unfold accΦ1; iintro H; iexists _; iexact H

theorem accΦ1_pos (t : Fin cfg1.N) (hz : t.val ≠ 0) : accΦ1 V c t.val t.isLt.le = owns (c : Thread nD τ) scM1_0 fullShare (accIn1 V c t) := by
  obtain ⟨_ | n, hn⟩ := t
  · exact absurd rfl hz
  · rfl

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := iprop(iprop(accΦ1 V c t.val (Nat.le_of_lt_succ t.isLt) ∗ Others1 (F := F) c) ∗ (∃ r, prngReg c r))
  q _ := fullShare
  owed _ := 0

theorem A_eq1 (w : Fin cfg1.W) : (dat1 V c).A w = V c (Pipeline.arrRef spec1 w) := rfl

theorem after1_3 (t : Fin cfg1.N) : (dat1 V c).after 3 t = outAt1 V c t := rfl

theorem before1_0 (t : Fin cfg1.N) (d) : (dat1 V c).before 0 t d = iblk1 V c 0 t :=
  ((dat1 V c).before_in_eq_fetched 0 rfl (fun _ => rfl) (fun _ _ _ => rfl) (fun _ => rfl) t d).trans rfl
theorem before1_1 (t : Fin cfg1.N) (d) : (dat1 V c).before 1 t d = iblk1 V c 1 t :=
  ((dat1 V c).before_in_eq_fetched 1 rfl (fun _ => rfl) (fun _ _ _ => rfl) (fun _ => rfl) t d).trans rfl
theorem before1_2 (t : Fin cfg1.N) (d) : (dat1 V c).before 2 t d = iblk1 V c 2 t :=
  ((dat1 V c).before_in_eq_fetched 2 rfl (fun _ => rfl) (fun _ _ _ => rfl) (fun _ => rfl) t d).trans rfl

/-- The body's obligation at every point: the closed forms of the two conditions say which case the point is in, and that case's run applies. -/
theorem body_obligation1 : BodyObligation (dat1 (F := F) V c) (defs₀ (F := F)) Variants.none () Set.univ := fun t => by
  rw [bigSep_W1, bigSep_W1]
  dsimp only
  simp only [before1_0, before1_1, before1_2]
  have hN : t.val < 64 := lt_of_lt_of_eq t.isLt (show cfg1.N = 64 from N_1)
  rw [show (dat1 V c).owesAt () t.succ = (dat1 V c).owesAt () t.castSucc from rfl]
  by_cases h1 : t.val % 8 = 7
  · simp only [show idle1 3 (grid1.coords t) = false from live1_3 t h1]
    rw [show (dat1 V c).after (3 : Fin 4) t = rd1 (runC1 V c t h1 (accIn1 V c t)).1 from outAt1_C V c t h1]
    show iprop(iprop(iprop(accΦ1 V c t.val t.isLt.le ∗ _) ∗ _) ∗ _) ⊢ wp _ _ _ _ (fun _ => iprop(iprop(iprop(owns (c : Thread nD τ) scM1_0 fullShare (accAt1 V c t.val t.isLt) ∗ _) ∗ _) ∗ _))
    rw [accΦ1_pos V c t (fun h => by omega), accAt1_C V c t h1]
    exact Cert.LibStep.body_step (W := fun K => wp frame (wpE (defs₀ (F := F)) Variants.none c none) Set.univ (bodyAt1 t) K) (fun d K => (runC1 V c t h1 _).2.2 Set.univ K) (fun _ => .rfl) (fun _ => .rfl) (fun _ => .rfl) (fun d => exists_intro _) (fun d => Cert.LibStep.owns_tiled _ VS1_0 _ (by sl_kernel_rfl)) .rfl
      (Cert.LibStep.owns_tiled _ VS1_0 _ (by sl_kernel_rfl))
  · simp only [show idle1 3 (grid1.coords t) = true from (idle1_3 t h1).1, show (win1 3).flush t = false from (idle1_3 t h1).2]
    show iprop(iprop(iprop(accΦ1 V c t.val t.isLt.le ∗ _) ∗ _) ∗ _) ⊢ wp _ _ _ _ (fun _ => iprop(iprop(iprop(owns (c : Thread nD τ) scM1_0 fullShare (accAt1 V c t.val t.isLt) ∗ _) ∗ _) ∗ _))
    by_cases h0 : t.val % 8 = 0
    · rw [accAt1_A V c t h0]
      exact Cert.LibStep.body_step (W := fun K => wp frame (wpE (defs₀ (F := F)) Variants.none c none) Set.univ (bodyAt1 t) K) (fun d K => (runA1 V c t h0).2.2 _ Set.univ K) (fun _ => .rfl) (fun _ => .rfl) (fun _ => .rfl) (fun d => .rfl) (fun d => by iintro H; iexists d; iexact H) (accΦ1_any V c _ _)
        (Cert.LibStep.owns_tiled _ VS1_0 _ (by sl_kernel_rfl))
    · rw [accΦ1_pos V c t (fun h => h0 (by rw [h])), accAt1_B V c t h0 h1]
      exact Cert.LibStep.body_step (W := fun K => wp frame (wpE (defs₀ (F := F)) Variants.none c none) Set.univ (bodyAt1 t) K) (fun d K => (runB1 V c t h0 h1 _).2.2 _ Set.univ K) (fun _ => .rfl) (fun _ => .rfl) (fun _ => .rfl) (fun d => .rfl) (fun d => by iintro H; iexists d; iexact H) .rfl
        (Cert.LibStep.owns_tiled _ VS1_0 _ (by sl_kernel_rfl))

theorem hin1 : Pipeline.ΦA spec1 c ⊢ (dat1 V c).Φ 0 := by
  rw [PhiA1_eq]; exact .rfl

theorem hout1 : (dat1 V c).Φ (Fin.last cfg1.N) ⊢ Pipeline.ΦA spec1 c := by
  rw [PhiA1_eq]; exact sep_mono (sep_mono (accΦ1_any V c _ _) .rfl) .rfl

end Regions

end Cert.KernelIdeal.Hand

end
-- ==== Proof.KI.Agg2Defs.lean ====

import proofs.«406303_j13073880449913_1_alg».proof.Proof.Gen.KernelIdeal.Launch
import proofs.«406303_j13073880449913_1_alg».proof.Proof.Gen.KernelIdeal.Skeleton
import proofs.«406303_j13073880449913_1_alg».proof.Proof.Gen.KernelIdeal.Points
import proofs.«406303_j13073880449913_1_alg».proof.Proof.LibStep
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

variable (V : (c : Dev nD) → (b : Ref sig .tc) → Buf (Elt F) ((c : Thread nD τ).loc b))

/-- Window `w`'s block at point `t`, read off its array as the region finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Regions

/-- The body's two branch conditions, and the points of the grid at which each holds. -/
abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 8 = 0 := by decide +kernel

abbrev cond2_1 (i : grid2.Coords) : Prop := k2_cond2 i = 1#1

theorem hcond2_1 : ∀ t : Fin cfg2.N, cond2_1 (grid2.coords t) ↔ t.val % 8 = 7 := by decide +kernel

theorem live2_in : ∀ t : Fin cfg2.N, cfg2.idle 0 (grid2.coords t) = false ∧ cfg2.idle 1 (grid2.coords t) = false ∧ cfg2.idle 2 (grid2.coords t) = false := by decide +kernel
theorem idle2_3 : ∀ t : Fin cfg2.N, ¬t.val % 8 = 7 → cfg2.idle 3 (grid2.coords t) = true ∧ (cfg2.win 3).flush t = false := by decide +kernel
theorem live2_3 : ∀ t : Fin cfg2.N, t.val % 8 = 7 → cfg2.idle 3 (grid2.coords t) = false := by decide +kernel

abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x64 .f32 := win2_3.stage (cfg2.slots t 3)
abbrev hs2_3 (t : Fin cfg2.N) : (ms2_3 t).IsWhole := hstage2_3 ((cfg2.slots t 3).cast nbuf2_3)

abbrev scM2_0 : Memref sig .tc .vmem S2048x64 .f32 := Memref.whole cc2_scratch0

abbrev VS2_0 : View sig .tc .vmem S2048x64 .f32 := scM2_0.view

/-- The three input blocks held in their memrefs. -/
abbrev ins2 (c : Dev nD) (a2 : Memref sig .tc .vmem S2048x2048 .bf16) (a3 : Memref sig .tc .vmem S2048x64 .bf16) (a4 : Memref sig .tc .vmem S1x64 .f32)
    (x0 : Vec F S2048x2048 .bf16) (x1 : Vec F S2048x64 .bf16) (x2 : Vec F S1x64 .f32) : sProp 𝕄 :=
  iprop(owns (c : Thread nD τ) a2 fullShare x0 ∗ owns (c : Thread nD τ) a3 fullShare x1 ∗ owns (c : Thread nD τ) a4 fullShare x2)

abbrev Others2 (c : Dev nD) : sProp 𝕄 :=
  Pipeline.scopedRestBut (Ix := Unit) (Name := ℕ) (U := UR sig nD τ) (Lvl := ℕ) (Val := Elt F) spec2 c [cc2_scratch0]

/-- The region invariant with the call's own accumulator split off from the other scoped buffers. -/
theorem PhiA2_eq (c : Dev nD) :
    (Pipeline.ΦA spec2 c : sProp 𝕄)
      = iprop(iprop((∃ d, owns (c : Thread nD τ) scM2_0 fullShare d) ∗ Others2 (F := F) c) ∗ (∃ r, prngReg c r)) := by
  unfold Pipeline.ΦA
  rw [Pipeline.scopedRest_split_of_list spec2 c [cc2_scratch0] (by decide) (by decide)]
  simp only [bigSepL_singleton, scM2_0, owns_whole]; try rfl

end Cert.KernelIdeal.Hand

end
-- ==== Proof.KI.Agg2RunA.lean ====
import proofs.«406303_j13073880449913_1_alg».proof.Proof.KI.Agg2Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun2_A (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : cond2_0 i) (hc1 : ¬cond2_1 i)
    (x0 : Vec F S2048x2048 .bf16) (x1 : Vec F S2048x64 .bf16) (x2 : Vec F S1x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(ins2 c arg2 arg3 arg4 x0 x1 x2 ∗ owns (c : Thread nD τ) arg5 fullShare xi3 ∗ (∃ d, owns (c : Thread nD τ) arg6 fullShare d)
            ∗ (iprop(ins2 c arg2 arg3 arg4 x0 x1 x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_agg_kernel i arg2 harg2 arg3 harg3 arg4 harg4 arg5 harg5 arg6 harg6) K } := by
  refine ⟨[], ?_, fun xi3 E K => ?run⟩
  case run =>
    simp only [cc2__gcn_agg_kernel_eq_skeleton]; unfold cc2__gcn_agg_kernel_skel
    unfold ins2 owns
    iintro ⟨⟨⟨%f0, %hf0, H0⟩, ⟨%f1, %hf1, H1⟩, ⟨%f2, %hf2, H2⟩⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0 H1 H2]
    · isplitl [H0]; · iapply Cert.LibStep.owns_unread c harg2; iexact H0
      isplitl [H1]; · iapply Cert.LibStep.owns_unread c harg3; iexact H1
      iapply Cert.LibStep.owns_unread c harg4; iexact H2
    isplitl [H3]; · iapply Cert.LibStep.owns_unread c harg5; iexact H3
    iexists _; iexact HS0

end Cert.KernelIdeal.Hand

end
-- ==== Proof.KI.Agg2RunB.lean ====
import proofs.«406303_j13073880449913_1_alg».proof.Proof.KI.Agg2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun2_B (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : ¬cond2_1 i)
    (x0 : Vec F S2048x2048 .bf16) (x1 : Vec F S2048x64 .bf16) (x2 : Vec F S1x64 .f32) (xs0 : Vec F S2048x64 .f32) :
    Σ' (L3 : List (View.Piece (Elt F) S2048x64 .f32)), { LS0 : List (View.Piece (Elt F) S2048x64 .f32) //
      ∀ (xi3 : Vec F S2048x64 .f32) (E : Set ℕ) (K : PUnit → sProp 𝕄),
        iprop(ins2 c arg2 arg3 arg4 x0 x1 x2 ∗ owns (c : Thread nD τ) arg5 fullShare xi3 ∗ owns (c : Thread nD τ) arg6 fullShare xs0
            ∗ (iprop(ins2 c arg2 arg3 arg4 x0 x1 x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_agg_kernel i arg2 harg2 arg3 harg3 arg4 harg4 arg5 harg5 arg6 harg6) K } := by
  refine ⟨[], ?_, fun xi3 E K => ?run⟩
  case run =>
    simp only [cc2__gcn_agg_kernel_eq_skeleton]; unfold cc2__gcn_agg_kernel_skel
    unfold ins2 owns
    iintro ⟨⟨⟨%f0, %hf0, H0⟩, ⟨%f1, %hf1, H1⟩, ⟨%f2, %hf2, H2⟩⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0 H1 H2]
    · isplitl [H0]; · iapply Cert.LibStep.owns_unread c harg2; iexact H0
      isplitl [H1]; · iapply Cert.LibStep.owns_unread c harg3; iexact H1
      iapply Cert.LibStep.owns_unread c harg4; iexact H2
    isplitl [H3]; · iapply Cert.LibStep.owns_unread c harg5; iexact H3
    iexists _; iexact HS0

end Cert.KernelIdeal.Hand

end
-- ==== Proof.KI.Agg2RunC.lean ====
import proofs.«406303_j13073880449913_1_alg».proof.Proof.KI.Agg2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

noncomputable def kernelRun2_C (c : Dev nD) (i : grid2.Coords) (arg2 : Memref sig .tc .vmem S2048x2048 .bf16) (harg2 : arg2.IsWhole) (arg3 : Memref sig .tc .vmem S2048x64 .bf16) (harg3 : arg3.IsWhole) (arg4 : Memref sig .tc .vmem S1x64 .f32) (harg4 : arg4.IsWhole) (arg5 : Memref sig .tc .vmem S2048x64 .f32) (harg5 : arg5.IsWhole) (arg6 : Memref sig .tc .vmem S2048x64 .f32) (harg6 : arg6.IsWhole) (hc0 : ¬cond2_0 i) (hc1 : cond2_1 i)
    (x0 : Vec F S2048x2048 .bf16) (x1 : Vec F S2048x64 .bf16) (x2 : Vec F S1x64 .f32) (xs0 : Vec F S2048x64 .f32) :
    Σ' (L3 : List (View.Piece (Elt F) S2048x64 .f32)), { LS0 : List (View.Piece (Elt F) S2048x64 .f32) //
      ∀ (E : Set ℕ) (K : PUnit → sProp 𝕄),
        iprop(ins2 c arg2 arg3 arg4 x0 x1 x2 ∗ (∃ d, owns (c : Thread nD τ) arg5 fullShare d) ∗ owns (c : Thread nD τ) arg6 fullShare xs0
            ∗ (iprop(ins2 c arg2 arg3 arg4 x0 x1 x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__gcn_agg_kernel i arg2 harg2 arg3 harg3 arg4 harg4 arg5 harg5 arg6 harg6) K } := by
  refine ⟨?_, ?_, fun E K => ?run⟩
  case run =>
    simp only [cc2__gcn_agg_kernel_eq_skeleton]; unfold cc2__gcn_agg_kernel_skel
    unfold ins2 owns
    iintro ⟨⟨⟨%f0, %hf0, H0⟩, ⟨%f1, %hf1, H1⟩, ⟨%f2, %hf2, H2⟩⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0 H1 H2]
    · isplitl [H0]; · iapply Cert.LibStep.owns_unread c harg2; iexact H0
      isplitl [H1]; · iapply Cert.LibStep.owns_unread c harg3; iexact H1
      iapply Cert.LibStep.owns_unread c harg4; iexact H2
    isplitl [H3]; · iexists _; iexact H3
    iexists _; iexact HS0

end Cert.KernelIdeal.Hand

end
-- ==== Proof.KI.Agg2.lean ====
import proofs.«406303_j13073880449913_1_alg».proof.Proof.KI.Agg2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a list of stored pieces leaves in a block. -/
def rd2 (L : List (View.Piece (Elt F) S2048x64 .f32)) : Vec F S2048x64 .f32 :=
  VS2_0.read (Elt F) (VS2_0.writes (Elt F) VS2_0.junk L)

section Regions
variable (V : (c : Dev nD) → (b : Ref sig .tc) → Buf (Elt F) ((c : Thread nD τ).loc b)) (c : Dev nD)

/-- The body's run at point `t` in each control case, on the point's own memrefs and input blocks. -/
abbrev runA2 (t : Fin cfg2.N) (h0 : t.val % 8 = 0) :=
  kernelRun2_A c (grid2.coords t) (ms2_0 t) (hs2_0 t) (ms2_1 t) (hs2_1 t) (ms2_2 t) (hs2_2 t) (ms2_3 t) (hs2_3 t) scM2_0 (Memref.isWhole_whole _)
    ((hcond2_0 t).mpr h0) (fun h => by have := (hcond2_1 t).mp h; omega) (iblk2 V c 0 t) (iblk2 V c 1 t) (iblk2 V c 2 t)
abbrev runB2 (t : Fin cfg2.N) (h0 : ¬t.val % 8 = 0) (h1 : ¬t.val % 8 = 7) (xs : Vec F S2048x64 .f32) :=
  kernelRun2_B c (grid2.coords t) (ms2_0 t) (hs2_0 t) (ms2_1 t) (hs2_1 t) (ms2_2 t) (hs2_2 t) (ms2_3 t) (hs2_3 t) scM2_0 (Memref.isWhole_whole _)
    (mt (hcond2_0 t).mp h0) (mt (hcond2_1 t).mp h1) (iblk2 V c 0 t) (iblk2 V c 1 t) (iblk2 V c 2 t) xs
abbrev runC2 (t : Fin cfg2.N) (h1 : t.val % 8 = 7) (xs : Vec F S2048x64 .f32) :=
  kernelRun2_C c (grid2.coords t) (ms2_0 t) (hs2_0 t) (ms2_1 t) (hs2_1 t) (ms2_2 t) (hs2_2 t) (ms2_3 t) (hs2_3 t) scM2_0 (Memref.isWhole_whole _)
    (fun h => by have := (hcond2_0 t).mp h; omega) ((hcond2_1 t).mpr h1) (iblk2 V c 0 t) (iblk2 V c 1 t) (iblk2 V c 2 t) xs

/-- The accumulator after point `n`: a reset point's own run, any other point's run over what the point before left. -/
def accAt2 : (n : ℕ) → n < cfg2.N → Vec F S2048x64 .f32
  | 0, hn => rd2 (runA2 V c ⟨0, hn⟩ (Nat.zero_mod 8)).2.1
  | n + 1, hn =>
    if h0 : (n + 1) % 8 = 0 then rd2 (runA2 V c ⟨n + 1, hn⟩ h0).2.1
    else if h1 : (n + 1) % 8 = 7 then rd2 (runC2 V c ⟨n + 1, hn⟩ h1 (accAt2 n (Nat.lt_of_succ_lt hn))).2.1
    else rd2 (runB2 V c ⟨n + 1, hn⟩ h0 h1 (accAt2 n (Nat.lt_of_succ_lt hn))).2.1

/-- What point `t` finds in the accumulator. -/
abbrev accIn2 (t : Fin cfg2.N) : Vec F S2048x64 .f32 := accAt2 V c (t.val - 1) ((Nat.sub_le _ _).trans_lt t.isLt)

/-- The output block after point `t`: stored at the last point of each group of eight only. -/
def outAt2 (t : Fin cfg2.N) : Vec F S2048x64 .f32 :=
  if h1 : t.val % 8 = 7 then rd2 (runC2 V c t h1 (accIn2 V c t)).1 else rd2 []

theorem accAt2_A (t : Fin cfg2.N) (h0 : t.val % 8 = 0) : accAt2 V c t.val t.isLt = rd2 (runA2 V c t h0).2.1 := by
  obtain ⟨_ | n, hn⟩ := t
  · rfl
  · exact dif_pos h0

theorem accAt2_B (t : Fin cfg2.N) (h0 : ¬t.val % 8 = 0) (h1 : ¬t.val % 8 = 7) :
    accAt2 V c t.val t.isLt = rd2 (runB2 V c t h0 h1 (accIn2 V c t)).2.1 := by
  obtain ⟨_ | n, hn⟩ := t
  · exact absurd (Nat.zero_mod 8) h0
  · exact (dif_neg h0).trans (dif_neg h1)

theorem accAt2_C (t : Fin cfg2.N) (h1 : t.val % 8 = 7) : accAt2 V c t.val t.isLt = rd2 (runC2 V c t h1 (accIn2 V c t)).2.1 := by
  obtain ⟨_ | n, hn⟩ := t
  · exact absurd (show 0 % 8 = 7 from h1) (by decide)
  · have h1' : (n + 1) % 8 = 7 := h1
    exact (dif_neg (by omega)).trans (dif_pos h1)

theorem outAt2_C (t : Fin cfg2.N) (h1 : t.val % 8 = 7) : outAt2 V c t = rd2 (runC2 V c t h1 (accIn2 V c t)).1 := dif_pos h1

/-- What the invariant says of the accumulator before position `n`: anything at first, then what the point before left. -/
def accΦ2 : (n : ℕ) → n ≤ cfg2.N → sProp 𝕄
  | 0, _ => iprop(∃ d, owns (c : Thread nD τ) scM2_0 fullShare d)
  | n + 1, hn => owns (c : Thread nD τ) scM2_0 fullShare (accAt2 V c n hn)

theorem accΦ2_any : ∀ (n : ℕ) (h : n ≤ cfg2.N), accΦ2 V c n h ⊢ iprop(∃ d, owns (c : Thread nD τ) scM2_0 fullShare d)
  | 0, _ => .rfl
  | _ + 1, _ => by unfold accΦ2; iintro H; iexists _; iexact H

theorem accΦ2_pos (t : Fin cfg2.N) (hz : t.val ≠ 0) : accΦ2 V c t.val t.isLt.le = owns (c : Thread nD τ) scM2_0 fullShare (accIn2 V c t) := by
  obtain ⟨_ | n, hn⟩ := t
  · exact absurd rfl hz
  · rfl

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ t := iprop(iprop(accΦ2 V c t.val (Nat.le_of_lt_succ t.isLt) ∗ Others2 (F := F) c) ∗ (∃ r, prngReg c r))
  q _ := fullShare
  owed _ := 0

theorem A_eq2 (w : Fin cfg2.W) : (dat2 V c).A w = V c (Pipeline.arrRef spec2 w) := rfl

theorem after2_3 (t : Fin cfg2.N) : (dat2 V c).after 3 t = outAt2 V c t := rfl

theorem before2_0 (t : Fin cfg2.N) (d) : (dat2 V c).before 0 t d = iblk2 V c 0 t :=
  ((dat2 V c).before_in_eq_fetched 0 rfl (fun _ => rfl) (fun _ _ _ => rfl) (fun _ => rfl) t d).trans rfl
theorem before2_1 (t : Fin cfg2.N) (d) : (dat2 V c).before 1 t d = iblk2 V c 1 t :=
  ((dat2 V c).before_in_eq_fetched 1 rfl (fun _ => rfl) (fun _ _ _ => rfl) (fun _ => rfl) t d).trans rfl
theorem before2_2 (t : Fin cfg2.N) (d) : (dat2 V c).before 2 t d = iblk2 V c 2 t :=
  ((dat2 V c).before_in_eq_fetched 2 rfl (fun _ => rfl) (fun _ _ _ => rfl) (fun _ => rfl) t d).trans rfl

/-- The body's obligation at every point: the closed forms of the two conditions say which case the point is in, and that case's run applies. -/
theorem body_obligation2 : BodyObligation (dat2 (F := F) V c) (defs₀ (F := F)) Variants.none () Set.univ := fun t => by
  rw [bigSep_W2, bigSep_W2]
  dsimp only
  simp only [before2_0, before2_1, before2_2]
  have hN : t.val < 64 := lt_of_lt_of_eq t.isLt (show cfg2.N = 64 from N_2)
  rw [show (dat2 V c).owesAt () t.succ = (dat2 V c).owesAt () t.castSucc from rfl]
  by_cases h1 : t.val % 8 = 7
  · simp only [show idle2 3 (grid2.coords t) = false from live2_3 t h1]
    rw [show (dat2 V c).after (3 : Fin 4) t = rd2 (runC2 V c t h1 (accIn2 V c t)).1 from outAt2_C V c t h1]
    show iprop(iprop(iprop(accΦ2 V c t.val t.isLt.le ∗ _) ∗ _) ∗ _) ⊢ wp _ _ _ _ (fun _ => iprop(iprop(iprop(owns (c : Thread nD τ) scM2_0 fullShare (accAt2 V c t.val t.isLt) ∗ _) ∗ _) ∗ _))
    rw [accΦ2_pos V c t (fun h => by omega), accAt2_C V c t h1]
    exact Cert.LibStep.body_step (W := fun K => wp frame (wpE (defs₀ (F := F)) Variants.none c none) Set.univ (bodyAt2 t) K) (fun d K => (runC2 V c t h1 _).2.2 Set.univ K) (fun _ => .rfl) (fun _ => .rfl) (fun _ => .rfl) (fun d => exists_intro _) (fun d => Cert.LibStep.owns_tiled _ VS2_0 _ (by sl_kernel_rfl)) .rfl
      (Cert.LibStep.owns_tiled _ VS2_0 _ (by sl_kernel_rfl))
  · simp only [show idle2 3 (grid2.coords t) = true from (idle2_3 t h1).1, show (win2 3).flush t = false from (idle2_3 t h1).2]
    show iprop(iprop(iprop(accΦ2 V c t.val t.isLt.le ∗ _) ∗ _) ∗ _) ⊢ wp _ _ _ _ (fun _ => iprop(iprop(iprop(owns (c : Thread nD τ) scM2_0 fullShare (accAt2 V c t.val t.isLt) ∗ _) ∗ _) ∗ _))
    by_cases h0 : t.val % 8 = 0
    · rw [accAt2_A V c t h0]
      exact Cert.LibStep.body_step (W := fun K => wp frame (wpE (defs₀ (F := F)) Variants.none c none) Set.univ (bodyAt2 t) K) (fun d K => (runA2 V c t h0).2.2 _ Set.univ K) (fun _ => .rfl) (fun _ => .rfl) (fun _ => .rfl) (fun d => .rfl) (fun d => by iintro H; iexists d; iexact H) (accΦ2_any V c _ _)
        (Cert.LibStep.owns_tiled _ VS2_0 _ (by sl_kernel_rfl))
    · rw [accΦ2_pos V c t (fun h => h0 (by rw [h])), accAt2_B V c t h0 h1]
      exact Cert.LibStep.body_step (W := fun K => wp frame (wpE (defs₀ (F := F)) Variants.none c none) Set.univ (bodyAt2 t) K) (fun d K => (runB2 V c t h0 h1 _).2.2 _ Set.univ K) (fun _ => .rfl) (fun _ => .rfl) (fun _ => .rfl) (fun d => .rfl) (fun d => by iintro H; iexists d; iexact H) .rfl
        (Cert.LibStep.owns_tiled _ VS2_0 _ (by sl_kernel_rfl))

theorem hin2 : Pipeline.ΦA spec2 c ⊢ (dat2 V c).Φ 0 := by
  rw [PhiA2_eq]; exact .rfl

theorem hout2 : (dat2 V c).Φ (Fin.last cfg2.N) ⊢ Pipeline.ΦA spec2 c := by
  rw [PhiA2_eq]; exact sep_mono (sep_mono (accΦ2_any V c _ _) .rfl) .rfl

end Regions

end Cert.KernelIdeal.Hand

end
-- ==== Proof.KI.Dec3.lean ====
import proofs.«406303_j13073880449913_1_alg».proof.Proof.Gen.KernelIdeal.Launch
import proofs.«406303_j13073880449913_1_alg».proof.Proof.Gen.KernelIdeal.Skeleton
import proofs.«406303_j13073880449913_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_2 : Rect S2048x1024 := Rect.unit (s := S2048x1024) ![0, 0] S2048x1024.size inb_S2048x1024_S2048x1024_0_0

noncomputable def out3_2 (x0 : Vec F S2048x64 .bf16) (x1 : Vec F S1024x64 .bf16) : Vec F S2048x1024 .f32 :=
  View.canon [⟨r3_2, k3_pay1 (View.ld x0 (Rect.unit (s := S2048x64) ![0, 0] S2048x64.size inb_S2048x64_S2048x64_0_0))
    (View.ld x1 (Rect.unit (s := S1024x64) ![0, 0] S1024x64.size inb_S1024x64_S1024x64_0_0))⟩]

noncomputable def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl

-- The one stored piece covers the whole output block, so the block read back is out3_2 of the two input blocks.
theorem body_obligation3 (c : Dev nD) : BodyObligation (dat3 (F := F) V c) (defs₀ (F := F)) Variants.none () Set.univ := fun t => by
  rw [bigSep_W3, bigSep_W3]
  simp only [before3_0, before3_1]
  dsimp only [dat3, Dat.owesAt, Dat.bound]
  sl_whnfR [defs₀, Defs.onTc]
  simp only [cc3__decode_kernel_eq_skeleton]; unfold cc3__decode_kernel_skel owns
  iintro ⟨HΦ, Ho, ⟨%d0, %f0, %hf0, H0⟩, ⟨%d1, %f1, %hf1, H1⟩, ⟨%d2, %f2, -, H2⟩⟩
  sl_exec
  sl_step
  iframe HΦ Ho
  isplitl [H0]
  · iexists f0; isplitr; · ipureintro; exact hf0
    iexact H0
  isplitl [H1]
  · iexists f1; isplitr; · ipureintro; exact hf1
    iexact H1
  iexists _; isplitr
  swap; · iexact H2
  ipureintro
  rw [← hf0, ← hf1]
  exact View.read_writes_eq_canon _ _ _ (View.cover_of_tiled _ S2048x1024.size (by rfl))

-- The full share is its left half composed with its right half: the array both input windows read is held half and half.
theorem arrays3_iff (c : Dev nD) (W : (b : Ref sig .tc) → Buf (Elt F) ((c : Thread nD τ).loc b))
    (G : (w : Fin cfg3.W) → Buf (Elt F) ((cfg3.win w).arr.view.loc (c : Thread nD τ))) (hG : ∀ w, G w = W (Pipeline.arrRef spec3 w)) :
    (unscopedBufs c W : sProp 𝕄) ⊣⊢ iprop((dat3 V c).arrays G ∗ Pipeline.unscopedRest spec3 c W) := by
  rw [Pipeline.unscopedBufs_split₀ (fun _ : Unit => cfg3) () winFacts₀3.arr_unscoped c W]
  unfold Pipeline.arrBufs Dat.arrays Dat.share
  rw [show Finset.univ.image (Pipeline.arrRef spec3) = {main_v55, main_v56} by decide, bigSep_insert (by decide), bigSep_singleton, bigSep_W3,
    (arr_whole3 0).set_eq_univ, (arr_whole3 2).set_eq_univ, if_neg (by decide), if_neg (by decide), if_pos (by decide), hG, hG, hG]
  show iprop((_ ∗ _) ∗ _) ⊣⊢ _
  constructor
  · iintro ⟨⟨Hin, Hout⟩, Hrest⟩
    icases (pointsTo_share (PosShare.mem_left_op_right fullShare)).1 $$ Hin with ⟨H0, H1⟩
    iframe Hrest Hout
    isplitl [H0]; · iexact H0
    iexact H1
  · iintro ⟨⟨H0, H1, H2⟩, Hrest⟩
    iframe Hrest H2
    iapply (pointsTo_share (PosShare.mem_left_op_right fullShare)).2
    isplitl [H0]; · iexact H0
    iexact H1

theorem entry_arrays3' (c : Dev nD) :
    (unscopedBufs c (V c) : sProp 𝕄) ⊢ iprop((dat3 V c).arrays ((dat3 V c).arrAt · 0) ∗ Pipeline.unscopedRest spec3 c (V c)) :=
  (arrays3_iff V c (V c) _ fun _ => rfl).1

theorem exit_arrays3 (V' : (c : Dev nD) → (b : Ref sig .tc) → Buf (Elt F) ((c : Thread nD τ).loc b)) (c : Dev nD)
    (hF : ∀ w, (dat3 V c).arrAt w cfg3.N = V' c (Pipeline.arrRef spec3 w))
    (hrest : ∀ b, b ∉ Finset.univ.image (Pipeline.arrRef spec3) → V' c b = V c b) :
    iprop((dat3 V c).arrays ((dat3 V c).arrAt · cfg3.N) ∗ Pipeline.unscopedRest spec3 c (V c)) ⊢ (unscopedBufs c (V' c) : sProp 𝕄) := by
  have hR : (Pipeline.unscopedRest spec3 c (V c) : sProp 𝕄) = Pipeline.unscopedRest spec3 c (V' c) := by
    unfold Pipeline.unscopedRest
    exact bigSep_congr fun b hb => by rw [hrest b (Finset.mem_sdiff.mp hb).2]
  rw [hR]
  exact (arrays3_iff V c (V' c) _ hF).2

theorem arrAt3_0 (c : Dev nD) (n : ℕ) : (dat3 V c).arrAt 0 n = V c (Pipeline.arrRef spec3 0) :=
  (dat3 V c).arrAt_in 0 rfl n
theorem arrAt3_1 (c : Dev nD) (n : ℕ) : (dat3 V c).arrAt 1 n = V c (Pipeline.arrRef spec3 1) :=
  (dat3 V c).arrAt_in 1 rfl n

end Cert.KernelIdeal.Hand

end
-- ==== Proof.KI.Segs.lean ====
import proofs.«406303_j13073880449913_1_alg».proof.Proof.Gen.KernelIdeal.Regions
import proofs.«406303_j13073880449913_1_alg».proof.Proof.KI.Agg0
import proofs.«406303_j13073880449913_1_alg».proof.Proof.KI.Agg1
import proofs.«406303_j13073880449913_1_alg».proof.Proof.KI.Agg2
import proofs.«406303_j13073880449913_1_alg».proof.Proof.KI.Dec3
import proofs.«406303_j13073880449913_1_alg».proof.Proof.LibRegion

noncomputable section

namespace Cert.KernelIdeal.Hand

open Cert.KernelIdeal Cert.KernelIdeal.Gen Cert.LibRegion
open Idealize.ShloMosaic Idealize.ShloMosaic.TcCoe
open Idealize.SL Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

abbrev Vof (W : Dev nD → Valuation τ sig (Elt F)) : (c : Dev nD) → (b : Ref sig .tc) → Buf (Elt F) ((c : Thread nD τ).loc b) := fun c b => W c b

abbrev 𝒱₀ : Variants := Variants.none
abbrev L : GSem nD τ sig → Finset Unit := fun _ => ∅
abbrev lv : GSem nD τ sig → Unit → ℕ := fun _ _ => 0

variable (m : (ℓ : Loc nD τ sig) → Buf (Elt F) ℓ)

def res0 (c : Dev nD) : Buf (Elt F) ((c : Thread nD τ).loc main_v41) := (dat0 (Vof (V3 m)) c).arrAt 3 cfg0.N
def U4 (c : Dev nD) : Valuation τ sig (Elt F) := Function.update (V3 m c) main_v41 (res0 m c)
def U5 (c : Dev nD) : Valuation τ sig (Elt F) := StableHlo.after hostOps1 (U4 m c)
def res1 (c : Dev nD) : Buf (Elt F) ((c : Thread nD τ).loc main_v45) := (dat1 (Vof (U5 m)) c).arrAt 3 cfg1.N
def U6 (c : Dev nD) : Valuation τ sig (Elt F) := Function.update (U5 m c) main_v45 (res1 m c)
def U7 (c : Dev nD) : Valuation τ sig (Elt F) := StableHlo.after hostOps2 (U6 m c)
def res2 (c : Dev nD) : Buf (Elt F) ((c : Thread nD τ).loc main_v49) := (dat2 (Vof (U7 m)) c).arrAt 3 cfg2.N
def U8 (c : Dev nD) : Valuation τ sig (Elt F) := Function.update (U7 m c) main_v49 (res2 m c)
def U9 (c : Dev nD) : Valuation τ sig (Elt F) := StableHlo.after hostOps3 (U8 m c)
def res3 (c : Dev nD) : Buf (Elt F) ((c : Thread nD τ).loc main_v56) := (dat3 (Vof (U9 m)) c).arrAt 2 cfg3.N
def U10 (c : Dev nD) : Valuation τ sig (Elt F) := Function.update (U9 m c) main_v56 (res3 m c)

/-- The regions' results as the unknowns of the generated valuations: with these, `VJ m (outsF m) = UJ m`. -/
def outsF : Outs (F := F) := fun J r c =>
  match J with
  | 4 => U4 m c r
  | 6 => U6 m c r
  | 8 => U8 m c r
  | 10 => U10 m c r
  | _ => V0 m c r

theorem V4_eq (c : Dev nD) : V4 m (outsF m) c = U4 m c := by
  show Function.update (V3 m c) main_v41 (U4 m c main_v41) = U4 m c
  unfold U4; rw [Function.update_self]
theorem V5_eq (c : Dev nD) : V5 m (outsF m) c = U5 m c := by
  show StableHlo.after hostOps1 (V4 m (outsF m) c) = _; rw [V4_eq]; rfl
theorem V6_eq (c : Dev nD) : V6 m (outsF m) c = U6 m c := by
  show Function.update (V5 m (outsF m) c) main_v45 (U6 m c main_v45) = U6 m c
  rw [V5_eq]; unfold U6; rw [Function.update_self]
theorem V7_eq (c : Dev nD) : V7 m (outsF m) c = U7 m c := by
  show StableHlo.after hostOps2 (V6 m (outsF m) c) = _; rw [V6_eq]; rfl
theorem V8_eq (c : Dev nD) : V8 m (outsF m) c = U8 m c := by
  show Function.update (V7 m (outsF m) c) main_v49 (U8 m c main_v49) = U8 m c
  rw [V7_eq]; unfold U8; rw [Function.update_self]
theorem V9_eq (c : Dev nD) : V9 m (outsF m) c = U9 m c := by
  show StableHlo.after hostOps3 (V8 m (outsF m) c) = _; rw [V8_eq]; rfl
theorem V10_eq (c : Dev nD) : V10 m (outsF m) c = U10 m c := by
  show Function.update (V9 m (outsF m) c) main_v56 (U10 m c main_v56) = U10 m c
  rw [V9_eq]; unfold U10; rw [Function.update_self]

def pdats : (p : Fin 4) → (c : Dev nD) → Dat τ (Elt F) Unit ℕ (UR sig nD τ) ℕ (Pipeline.pin (pcfgs (F := F)) adm p) c
  | ⟨0, _⟩ => fun c => dat0 (Vof (V3 m)) c
  | ⟨1, _⟩ => fun c => dat1 (Vof (U5 m)) c
  | ⟨2, _⟩ => fun c => dat2 (Vof (U7 m)) c
  | ⟨3, _⟩ => fun c => dat3 (Vof (U9 m)) c

def reg0 : Pipeline.RegionSeg (pcfgs (F := F)) adm (pdats m) () defs₀ 𝒱₀ L lv 0 :=
  regionOfLaunch cfgs (pdats m) defs₀ 𝒱₀ L lv 0 launch0 (V3 m) (U4 m) (fun c => (body_obligation0 (Vof (V3 m)) c).loose) (hin0 (Vof (V3 m))) (hout0 (Vof (V3 m))) 3
def reg1 : Pipeline.RegionSeg (pcfgs (F := F)) adm (pdats m) () defs₀ 𝒱₀ L lv 1 :=
  regionOfLaunch cfgs (pdats m) defs₀ 𝒱₀ L lv 1 launch1 (U5 m) (U6 m) (fun c => (body_obligation1 (Vof (U5 m)) c).loose) (hin1 (Vof (U5 m))) (hout1 (Vof (U5 m))) 3
def reg2 : Pipeline.RegionSeg (pcfgs (F := F)) adm (pdats m) () defs₀ 𝒱₀ L lv 2 :=
  regionOfLaunch cfgs (pdats m) defs₀ 𝒱₀ L lv 2 launch2 (U7 m) (U8 m) (fun c => (body_obligation2 (Vof (U7 m)) c).loose) (hin2 (Vof (U7 m))) (hout2 (Vof (U7 m))) 3
def reg3 : Pipeline.RegionSeg (pcfgs (F := F)) adm (pdats m) () defs₀ 𝒱₀ L lv 3 :=
  regionOfSplit cfgs (pdats m) defs₀ 𝒱₀ L lv 3 winFacts₀3 block_pos3 stage_whole3 (U9 m) (U10 m) (fun c => (body_obligation3 (Vof (U9 m)) c).loose) (fun _ => .rfl) (fun _ => .rfl)
    (entry_arrays3' (Vof (U9 m)))
    fun c => exit_arrays3 (Vof (U9 m)) (Vof (U10 m)) c
      (fun | 0 => (arrAt3_0 _ c _).trans (Function.update_of_ne (StableHlo.devRef_ne_of_ne (by decide : main_v55 ≠ main_v56)) ..).symm
           | 1 => (arrAt3_1 _ c _).trans (Function.update_of_ne (StableHlo.devRef_ne_of_ne (by decide : main_v55 ≠ main_v56)) ..).symm
           | 2 => show res3 m c = U10 m c main_v56 by unfold U10; rw [Function.update_self])
      fun b hb => Function.update_of_ne (StableHlo.devRef_ne_of_ne fun e => hb (by rw [e]; decide)) ..

/-- Every weakly fair execution of @main terminates with each unscoped buffer at the last valuation `U10 m c`: @main is its host stretches and the four regions in turn. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = U10 m c b) := by
  refine Pipeline.θ_run_regions_kit_dev (pcfgs (F := F)) adm (pdats m) () cellOf_inj emb₁ defs₀ 𝒱₀ L lv m ρ main
    (segs m (outsF m) 𝒱₀ L lv (fun _ c => Beside c) () (pdats m) (reg0 m) (reg1 m) (reg2 m) (reg3 m))
    (fun c Q => by rewrite [main_chain c, Seg.run_eq_chain]; exact .rfl)
    (fun c => by simp only [segs, Seg.pipes_host, Seg.pipes_region, Seg.pipes_nil]; decide) 0 (fun _ _ => rfl) (fun _ => iprop(emp)) _ (own_launch _)
    (T₀ := fun c => iprop(StableHlo.held (c : Thread nD τ) (Pipeline.ucRefs τ sig) (V0 m c) ∗ Beside c))
    (Tₙ := fun c => StableHlo.held (c : Thread nD τ) (Pipeline.ucRefs τ sig) (U10 m c))
    (hch := fun c => ⟨.rfl, .rfl, .rfl, .rfl, held_congr (V4_eq m c).symm, held_congr (V5_eq m c), held_congr (V6_eq m c).symm, held_congr (V7_eq m c),
      held_congr (V8_eq m c).symm, held_congr (V9_eq m c), sep_mono .rfl (by iintro ⟨-, HO⟩; iexact HO)⟩)
    (hinit := launch_held L lv m ρ) (QY := fun c s => ∀ b ∈ Pipeline.ucRefs τ sig, s.mem ((c : Thread nD τ).1, b) = U10 m c b)
    (hfin := fun c s' => held_read c _ s') (hQ := fun _ h => h)

end Cert.KernelIdeal.Hand

end
-- ==== Proof.KI.FrameOf.lean ====
import proofs.«406303_j13073880449913_1_alg».proof.Proof.KI.Segs

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- The run with the three results named and the nine arguments as launched: each is an unscoped buffer, so read off the last valuation, which no item changes at an argument. -/
theorem kernel_run (ρ : Dev nD → PrngReg) :
    θ_run defs (onTc (τ := τ) (main (F := F))) ⟨m, fun _ => 0, ρ⟩ (fun r => ∀ c : Dev nD,
      r.2.mem ((c.tc : Thread nD τ).loc main_v56) = U10 m c main_v56
      ∧ r.2.mem ((c.tc : Thread nD τ).loc main_v45) = U10 m c main_v45
      ∧ r.2.mem ((c.tc : Thread nD τ).loc main_v49) = U10 m c main_v49
      ∧ [main_arg0, main_arg1, main_arg2, main_arg3, main_arg4, main_arg5, main_arg6, main_arg7, main_arg8].Forall fun b =>
        r.2.mem ((c.tc : Thread nD τ).loc b) = m ((c.tc : Thread nD τ).loc b)) :=
  (θ_run defs _ _).mono (fun r h c => by
    have hb := fun (b : Ref sig .tc) (hs : ¬ (Proc.devRef .tc b : DevRef τ sig).isScoped) =>
      h c _ (Finset.mem_filter.mpr ⟨StableHlo.devRef_mem_tcRefs b, hs⟩)
    have ha := fun (b : Ref sig .tc) hs (e : V10 m (outsF m) c b = m ((c.tc : Thread nD τ).loc b)) => (hb b hs).trans ((V10_eq m c ▸ e :))
    exact ⟨hb _ (by decide), hb _ (by decide), hb _ (by decide),
      ha _ (by decide) (V10_main_arg0 ..), ha _ (by decide) (V10_main_arg1 ..), ha _ (by decide) (V10_main_arg2 ..),
      ha _ (by decide) (V10_main_arg3 ..), ha _ (by decide) (V10_main_arg4 ..), ha _ (by decide) (V10_main_arg5 ..),
      ha _ (by decide) (V10_main_arg6 ..), ha _ (by decide) (V10_main_arg7 ..), ha _ (by decide) (V10_main_arg8 ..)⟩)
    (run_all m ρ)

end Cert.KernelIdeal.Hand

end
-- ==== Proof.GraphSpec.lean ====
import Idealize.ShloMosaic.PureOps.Ideal
import Idealize.ShloMosaic.Lib.ValueIdx
import Mathlib.Data.EReal.Operations
import Mathlib.Algebra.BigOperators.Fin

noncomputable section

namespace Cert.GraphSpec

open Idealize.ShloMosaic Idealize.ShloMosaic.ValueIdx

variable {E N C : ℕ}

/-- Aggregation along the edge list: entry `(i, c)` adds up `H (src e) c * nrm e` over the edges `e` that end at `i`. -/
def agg (src dst : Fin E → Fin N) (nrm : Fin E → EReal) (H : Fin N → Fin C → EReal) (i : Fin N) (c : Fin C) : EReal :=
  ∑ e : Fin E, if dst e = i then H (src e) c * nrm e else 0

/-- The same graph as a dense matrix: entry `(i, j)` adds up the weights of all edges `j → i`. -/
def adj (src dst : Fin E → Fin N) (nrm : Fin E → EReal) (i j : Fin N) : EReal :=
  ∑ e : Fin E, if dst e = i ∧ src e = j then nrm e else 0

/-- Multiplication by an arbitrary extended real distributes over a finite sum all of whose terms are nonnegative. -/
theorem sum_mul_of_nonneg {ι : Type} (s : Finset ι) (a : ι → EReal) (ha : ∀ i ∈ s, 0 ≤ a i) (h : EReal) :
    (∑ i ∈ s, a i) * h = ∑ i ∈ s, a i * h := by
  classical
  induction s using Finset.induction_on with
  | empty => simp
  | insert x s hx ih =>
    have hs : ∀ i ∈ s, 0 ≤ a i := fun i hi => ha i (Finset.mem_insert_of_mem hi)
    rw [Finset.sum_insert hx, Finset.sum_insert hx,
      EReal.right_distrib_of_nonneg (ha x (Finset.mem_insert_self x s)) (Finset.sum_nonneg hs), ih hs]

/-- Matrix product and edge-list aggregation agree once the weights are nonnegative (parallel edges may then be summed first). -/
theorem adj_mul_sum (src dst : Fin E → Fin N) (nrm : Fin E → EReal) (hn : ∀ e, 0 ≤ nrm e)
    (H : Fin N → Fin C → EReal) (i : Fin N) (c : Fin C) :
    ∑ j : Fin N, adj src dst nrm i j * H j c = agg src dst nrm H i c := by
  classical
  unfold adj agg
  rw [Finset.sum_congr rfl fun j _ => sum_mul_of_nonneg _ (fun e => if dst e = i ∧ src e = j then nrm e else 0)
    (fun e _ => ite_nonneg (hn e) le_rfl) (H j c), Finset.sum_comm]
  refine Finset.sum_congr rfl fun e _ => ?_
  rw [Finset.sum_eq_single (src e)]
  · by_cases hd : dst e = i
    · rw [if_pos ⟨hd, rfl⟩, if_pos hd, mul_comm]
    · rw [if_neg (fun h => hd h.1), if_neg hd, zero_mul]
  · intro j _ hj
    rw [if_neg (fun h => hj h.2.symm), zero_mul]
  · exact fun h => absurd (Finset.mem_univ _) h

/-- Splitting `Fin (B * K)` into `B` consecutive blocks of length `K` does not change a sum. -/
theorem sum_blocks (B K : ℕ) (f : Fin (B * K) → EReal) :
    ∑ b : Fin B, ∑ k : Fin K, f ⟨b.val * K + k.val, by
        have := b.isLt; have := k.isLt
        calc b.val * K + k.val < b.val * K + K := by omega
          _ = (b.val + 1) * K := by ring
          _ ≤ B * K := Nat.mul_le_mul_right K (by omega)⟩
      = ∑ j : Fin (B * K), f j := by
  have key : ∀ (b : Fin B) (k : Fin K) (h : b.val * K + k.val < B * K),
      f ⟨b.val * K + k.val, h⟩ = f (finProdFinEquiv (b, k)) := by
    intro b k h
    refine congrArg f (Fin.ext ?_)
    show b.val * K + k.val = k.val + K * b.val
    rw [Nat.add_comm, Nat.mul_comm]
  simp only [key]
  rw [← Fintype.sum_prod_type' (fun (b : Fin B) (k : Fin K) => f (finProdFinEquiv (b, k)))]
  exact Fintype.sum_equiv finProdFinEquiv _ _ (fun x => rfl)

end Cert.GraphSpec

end
-- ==== Proof.Layers.lean ====
import proofs.«406303_j13073880449913_1_alg».proof.Proof.GraphSpec

noncomputable section

namespace Cert.Layers

open Idealize.ShloMosaic Idealize.ShloMosaic.ValueIdx Cert.GraphSpec

/-- Index words are read modulo the number of nodes, so a word below `16384` is its own node. -/
def node (w : BitVec 32) : Fin 16384 := ⟨w.toNat % 16384, Nat.mod_lt _ (by norm_num)⟩

def nodeAt (v : (⟨1, ![278528]⟩ : Shape).Idx → BitVec 32) (e : Fin 278528) : Fin 16384 := node (v (ix1 e))

def mm {n k c : ℕ} (X : Fin n → Fin k → EReal) (W : (⟨2, ![k, c]⟩ : Shape).Idx → EReal) (i : Fin n) (j : Fin c) : EReal :=
  ∑ l : Fin k, X i l * W (ix2 l j)

def rowsOfArr {n k : ℕ} (X : (⟨2, ![n, k]⟩ : Shape).Idx → EReal) (i : Fin n) (l : Fin k) : EReal := X (ix2 i l)

section
variable (sw dw : (⟨1, ![278528]⟩ : Shape).Idx → BitVec 32) (nrm : (⟨1, ![278528]⟩ : Shape).Idx → EReal)

/-- One graph convolution of the table `H` over the edge list that the index words and weights spell. -/
def conv {C : ℕ} (H : Fin 16384 → Fin C → EReal) : Fin 16384 → Fin C → EReal :=
  agg (nodeAt sw) (nodeAt dw) (fun e => nrm (ix1 e)) H

variable (x : (⟨2, ![16384, 256]⟩ : Shape).Idx → EReal) (eps : (⟨2, ![16384, 64]⟩ : Shape).Idx → EReal)
  (W1 : (⟨2, ![256, 128]⟩ : Shape).Idx → EReal) (b1 : (⟨1, ![128]⟩ : Shape).Idx → EReal)
  (Wmu : (⟨2, ![128, 64]⟩ : Shape).Idx → EReal) (bmu : (⟨1, ![64]⟩ : Shape).Idx → EReal)
  (Wlv : (⟨2, ![128, 64]⟩ : Shape).Idx → EReal) (blv : (⟨1, ![64]⟩ : Shape).Idx → EReal)

def hidden (i : Fin 16384) (c : Fin 128) : EReal :=
  max (conv sw dw nrm (mm (rowsOfArr x) W1) i c + b1 (ix1 c)) 0

def muOf (i : Fin 16384) (c : Fin 64) : EReal :=
  conv sw dw nrm (mm (hidden sw dw nrm x W1 b1) Wmu) i c + bmu (ix1 c)

def lvOf (i : Fin 16384) (c : Fin 64) : EReal :=
  conv sw dw nrm (mm (hidden sw dw nrm x W1 b1) Wlv) i c + blv (ix1 c)

/-- The reparameterised latent code, the factor `½` kept as the binary word of `0.5`. -/
def zOf (i : Fin 16384) (c : Fin 64) : EReal :=
  muOf sw dw nrm x W1 b1 Wmu bmu i c
    + eps (ix2 i c) * Ideal.exp (Ideal.ofBits .f32 0x3F000000#32 * lvOf sw dw nrm x W1 b1 Wlv blv i c)

/-- The decoder: the logistic function of the inner product of two latent rows. -/
def reconOf (i j : Fin 16384) : EReal :=
  Ideal.logistic (∑ c : Fin 64, zOf sw dw nrm x eps W1 b1 Wmu bmu Wlv blv i c * zOf sw dw nrm x eps W1 b1 Wmu bmu Wlv blv j c)

end

end Cert.Layers

end
-- ==== Proof.LibScatterRows.lean ====
import Idealize.ShloMosaic.PureOps.Ideal
import Idealize.ShloMosaic.Lib.ValueIdx
import Idealize.ShloMosaic.Lib.ValueIdxRank1

noncomputable section

namespace Idealize.ShloMosaic.SegSum

open Idealize.ShloMosaic Idealize.ShloMosaic.ValueIdx

abbrev rowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

abbrev flatDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

def rowsOf {N E w : Nat} (idx : IVec ⟨2, ![E, 1]⟩ w) (n : Fin N) : Finset (Fin E) :=
  Finset.univ.filter fun e => (idx (ix2 e (0 : Fin 1))).toInt = (n.val : Int)

/-- `resultIdx?` answers `some i` precisely when, axis by axis, start plus window coordinate equals the coordinate of `i`. -/
private theorem resultIdx?_eq_some_iff {s si u : Shape} (d : ScatterDims s si u) {w : Nat}
    (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hb
      have hv := congrArg (fun f => (f a).val) (Option.some.inj h)
      simp only at hv
      have := hb a
      omega
    · cases h
  · intro h
    have hb : ∀ a, 0 ≤ d.start j idx a + d.window j a ∧ d.start j idx a + d.window j a < s.size a := by
      intro a
      have := h a
      have := (i a).isLt
      omega
    rw [dif_pos hb]
    congr 1
    funext a
    apply Fin.ext
    have := h a
    simp only
    omega

section Rows
variable {N E C w : Nat}
  (wf : ScatterDims.WF ⟨2, ![N, C]⟩ ⟨2, ![E, 1]⟩ ⟨2, ![E, C]⟩ [1] [0] [0] 1)

private theorem rows_start0 (e : Fin E) (j' : Fin C) (idx : IVec ⟨2, ![E, 1]⟩ w) :
    (rowsDims N E C wf).start (ix2 e j') idx 0 = (idx (ix2 e (0 : Fin 1))).toInt := by
  unfold ScatterDims.start
  rw [dif_pos (show (0 : Fin 2) ∈ (rowsDims N E C wf).scatterDimsToOperandDims from List.mem_singleton.mpr rfl)]
  congr 2
  funext b; refine Fin.ext ?_
  match b with
  | ⟨0, _⟩ => rfl
  | ⟨1, _⟩ => rfl

private theorem rows_start1 (u : (⟨2, ![E, C]⟩ : Shape).Idx) (idx : IVec ⟨2, ![E, 1]⟩ w) :
    (rowsDims N E C wf).start u idx 1 = 0 :=
  dif_neg (show (1 : Fin 2) ∉ [(0 : Fin 2)] by decide)

private theorem rows_window0 (u : (⟨2, ![E, C]⟩ : Shape).Idx) :
    (rowsDims N E C wf).window u 0 = 0 :=
  dif_neg (show (0 : Fin 2) ∉ (List.finRange 2).filter (· ∉ [(0 : Fin 2)]) by decide)

private theorem rows_window1 (e : Fin E) (j' : Fin C) :
    (rowsDims N E C wf).window (ix2 e j') 1 = j'.val :=
  dif_pos (show (1 : Fin 2) ∈ (List.finRange 2).filter (· ∉ [(0 : Fin 2)]) by decide)

private theorem rows_resultIdx_iff (e : Fin E) (j' : Fin C) (idx : IVec ⟨2, ![E, 1]⟩ w)
    (n : Fin N) (j : Fin C) :
    (rowsDims N E C wf).resultIdx? (ix2 e j') idx = some (ix2 n j) ↔
      (idx (ix2 e (0 : Fin 1))).toInt = (n.val : Int) ∧ j' = j := by
  rw [resultIdx?_eq_some_iff, Fin.forall_fin_two, rows_start0, rows_window0, rows_start1, rows_window1, Fin.ext_iff]
  show _ + ((0 : ℕ) : Int) = (n.val : Int) ∧ 0 + (j'.val : Int) = (j.val : Int) ↔ _
  omega

end Rows

/-- The row scatter-add read at `(n, j)`: the operand's element plus the updates of the rows whose index word, read signed, is `n`. -/
theorem hostScatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowsDims N E C wf) x idx upd (ix2 n j)
      = x (ix2 n j) + ∑ e ∈ rowsOf idx n, upd (ix2 e j) := by
  unfold Ideal.hostScatterAdd rowsOf
  congr 1
  rw [Finset.sum_filter, Finset.sum_filter, sum_idx2]
  refine Finset.sum_congr rfl fun e _ => ?_
  simp only [rows_resultIdx_iff]
  by_cases h : (idx (ix2 e (0 : Fin 1))).toInt = (n.val : Int)
  · simp [h]
  · simp [h]

section Flat
variable {N E w : Nat}
  (wf : ScatterDims.WF ⟨1, ![N]⟩ ⟨2, ![E, 1]⟩ ⟨1, ![E]⟩ [] [0] [0] 1)

private theorem flat_start0 (e : Fin E) (idx : IVec ⟨2, ![E, 1]⟩ w) :
    (flatDims N E wf).start (ix1 e) idx 0 = (idx (ix2 e (0 : Fin 1))).toInt := by
  unfold ScatterDims.start
  rw [dif_pos (show (0 : Fin 1) ∈ (flatDims N E wf).scatterDimsToOperandDims from List.mem_singleton.mpr rfl)]
  congr 2
  funext b; refine Fin.ext ?_
  match b with
  | ⟨0, _⟩ => rfl
  | ⟨1, _⟩ => rfl

private theorem flat_window0 (u : (⟨1, ![E]⟩ : Shape).Idx) :
    (flatDims N E wf).window u 0 = 0 :=
  dif_neg (show (0 : Fin 1) ∉ (List.finRange 1).filter (· ∉ [(0 : Fin 1)]) by decide)

private theorem flat_resultIdx_iff (e : Fin E) (idx : IVec ⟨2, ![E, 1]⟩ w) (n : Fin N) :
    (flatDims N E wf).resultIdx? (ix1 e) idx = some (ix1 n) ↔
      (idx (ix2 e (0 : Fin 1))).toInt = (n.val : Int) := by
  rw [resultIdx?_eq_some_iff, Fin.forall_fin_one, flat_start0, flat_window0]
  show _ + ((0 : ℕ) : Int) = (n.val : Int) ↔ _
  omega

end Flat

/-- The flat scatter-add read at `n`. -/
theorem hostScatterAdd_flat_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (flatDims N E wf) x idx upd (ix1 n)
      = x (ix1 n) + ∑ e ∈ rowsOf idx n, upd (ix1 e) := by
  unfold Ideal.hostScatterAdd rowsOf
  congr 1
  rw [Finset.sum_filter, Finset.sum_filter, ← Equiv.sum_comp (idxEquiv1 (n := E)).symm]
  refine Finset.sum_congr rfl fun e _ => ?_
  show (if (flatDims N E wf).resultIdx? (ix1 e) idx = some (ix1 n) then upd (ix1 e) else 0) = _
  simp only [flat_resultIdx_iff]

end Idealize.ShloMosaic.SegSum

end
-- ==== Proof.LibGatherRows.lean ====
import Idealize.ShloMosaic.PureOps
import Idealize.ShloMosaic.Lib.ValueIdx

noncomputable section

namespace Idealize.ShloMosaic.RowGather

open Idealize.ShloMosaic Idealize.ShloMosaic.ValueIdx

variable {α : Type}

abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

def clampRow (N : Nat) (hN : 0 < N) {w : Nat} (i : BitVec w) : Fin N :=
  ⟨min i.toInt.toNat (N - 1), by omega⟩

/-- A gather of whole rows reads the table's row `idx[e, 0]`, taken signed and clamped into the table. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 (clampRow N hN (idx (ix2 e (0 : Fin 1)))) k) := by
  unfold Host.gather
  congr 1
  funext a
  refine Fin.ext ?_
  match a with
  | ⟨0, _⟩ =>
    show (rowDims N C E wf).start (ix2 e k) idx 0 + (rowDims N C E wf).batchCoord (ix2 e k) 0
      + (rowDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e k) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e k) idx 1 + (rowDims N C E wf).batchCoord (ix2 e k) 1
      + (rowDims N C E wf).offCoord (ix2 e k) 1 = _
    rw [GatherDims.batchCoord_eq_zero _ _ _ List.not_mem_nil]
    unfold GatherDims.start
    rw [dif_neg (show (1 : Fin 2) ∉ (rowDims N C E wf).startIndexMap from (by decide : (1 : Fin 2) ∉ [(0 : Fin 2)]))]
    simp only [Nat.add_zero, Nat.zero_add]
    unfold GatherDims.offCoord
    rw [dif_pos ((GatherDims.mem_sKept _ _).mpr ⟨(by decide : (1 : Fin 2) ∉ [(0 : Fin 2)]), List.not_mem_nil⟩)]
    rfl

end Idealize.ShloMosaic.RowGather

end
-- ==== Proof.RefConv.lean ====
import proofs.«406303_j13073880449913_1_alg».proof.Proof.Layers
import proofs.«406303_j13073880449913_1_alg».proof.Proof.LibScatterRows
import proofs.«406303_j13073880449913_1_alg».proof.Proof.LibGatherRows

noncomputable section

namespace Cert.RefConv
open Idealize.ShloMosaic Idealize.ShloMosaic.ValueIdx Idealize.ShloMosaic.SegSum Idealize.ShloMosaic.RowGather
  Cert.GraphSpec Cert.Layers

/-- A word whose signed reading lies in `[0, 16384)` names the node with that number. -/
theorem node_toInt (w : BitVec 32) (h : 0 ≤ w.toInt ∧ w.toInt < 16384) : ((node w).val : Int) = w.toInt := by
  have hc := BitVec.toInt_eq_toNat_cond w
  have hlt := w.isLt
  show ((w.toNat % 16384 : ℕ) : Int) = _
  split at hc <;> omega

/-- One convolution of the reference read at `(i, c)`: the rows of `H` gathered at the (wrapped, clamped) source
    words, scaled by the weights and added onto zeros at the destination words, when all words name nodes. -/
theorem conv_read {C : ℕ}
    (wfS : ScatterDims.WF ⟨2, ![16384, C]⟩ ⟨2, ![278528, 1]⟩ ⟨2, ![278528, C]⟩ [1] [0] [0] 1)
    (wfG : GatherDims.WF ⟨2, ![16384, C]⟩ ⟨2, ![278528, 1]⟩ ⟨2, ![278528, C]⟩ [1] [0] [] [0] [] 1 ![1, C])
    {sw dw : (⟨1, ![278528]⟩ : Shape).Idx → BitVec 32} {nrm : (⟨1, ![278528]⟩ : Shape).Idx → EReal}
    (hs : ∀ e, 0 ≤ (sw e).toInt ∧ (sw e).toInt < 16384) (hd : ∀ e, 0 ≤ (dw e).toInt ∧ (dw e).toInt < 16384)
    (H : (⟨2, ![16384, C]⟩ : Shape).Idx → EReal)
    {zero R : (⟨2, ![16384, C]⟩ : Shape).Idx → EReal} (hz : ∀ j, zero j = 0)
    {sidx didx : IVec ⟨2, ![278528, 1]⟩ 32}
    (hsidx : ∀ e : Fin 278528, sidx (ix2 e (0 : Fin 1))
      = Scalar.select (IntOp.cmpi .slt (sw (ix1 e)) 0#32) (IntOp.addi (sw (ix1 e)) 16384#32) (sw (ix1 e)))
    (hdidx : ∀ e : Fin 278528, didx (ix2 e (0 : Fin 1)) = dw (ix1 e))
    {ncol G upd : (⟨2, ![278528, C]⟩ : Shape).Idx → EReal} (hn : ∀ (e : Fin 278528) (k : Fin C), ncol (ix2 e k) = nrm (ix1 e))
    (hupd : ∀ j, upd j = FloatOps.mulf (F := Ideal) (φ := .f32) (G j) (ncol j))
    (hG : G = Host.gather (rowDims 16384 C 278528 wfG) H sidx)
    (hR : R = Ideal.hostScatterAdd (rowsDims 16384 278528 C wfS) zero didx upd) (i : Fin 16384) (c : Fin C) :
    R (ix2 i c) = conv sw dw nrm (rowsOfArr H) i c := by
  subst hG hR
  rw [hostScatterAdd_rows_apply wfS, hz, zero_add]
  unfold conv agg rowsOf
  rw [Finset.sum_filter]
  refine Finset.sum_congr rfl fun e _ => ?_
  rw [hdidx]
  refine if_congr ?_ ?_ rfl
  · rw [← node_toInt _ (hd _), Nat.cast_inj, Fin.val_inj]; rfl
  · rw [hupd, gather_rows_apply (by norm_num) wfG, hsidx, hn]
    have hw : Scalar.select (IntOp.cmpi .slt (sw (ix1 e)) 0#32) (IntOp.addi (sw (ix1 e)) 16384#32) (sw (ix1 e)) = sw (ix1 e) := by
      have hs0 : (sw (ix1 e)).slt 0#32 = false := by
        rw [BitVec.slt_eq_decide, show (0#32 : BitVec 32).toInt = 0 from by decide]
        exact decide_eq_false (by have := (hs (ix1 e)).1; omega)
      show (if BitVec.ofBool ((sw (ix1 e)).slt 0#32) = 1 then sw (ix1 e) + 16384#32 else sw (ix1 e)) = _
      rw [hs0]; rfl
    rw [hw]
    have hc : clampRow 16384 (by norm_num) (sw (ix1 e)) = nodeAt sw e := by
      have h1 := node_toInt _ (hs (ix1 e))
      have h2 := (node (sw (ix1 e))).isLt
      refine Fin.ext ?_
      show min (sw (ix1 e)).toInt.toNat (16384 - 1) = (node (sw (ix1 e))).val
      omega
    rw [hc]
    rfl
end Cert.RefConv

end
-- ==== Proof.RefValues.lean ====
import proofs.«406303_j13073880449913_1_alg».proof.Proof.RefReadP
import proofs.«406303_j13073880449913_1_alg».proof.Proof.RefConv
import Idealize.ShloMosaic.PureOps.IdealRules

noncomputable section

namespace Cert.RefValues

open Cert.ReferenceIdeal Cert.ReferenceIdeal.Gen Cert.ReferenceIdeal.ReadP Cert.Layers Cert.GraphSpec
  Idealize.ShloMosaic Idealize.ShloMosaic.TcCoe Idealize.SL.Sem Idealize.ShloMosaic.StableHlo Idealize.ShloMosaic.ValueIdx

theorem idx1_ext {n : ℕ} (f : (⟨1, ![n]⟩ : Shape).Idx) (e : Fin n) (h : (f 0).val = e.val) : f = ix1 e :=
  (eq_ix1 f).trans (congrArg ix1 (Fin.ext h))

theorem idx2_ext {n0 n1 : ℕ} (f : (⟨2, ![n0, n1]⟩ : Shape).Idx) (a : Fin n0) (b : Fin n1)
    (h0 : (f 0).val = a.val) (h1 : (f 1).val = b.val) : f = ix2 a b :=
  (eq_ix2 f).trans (congrArg₂ ix2 (Fin.ext h0) (Fin.ext h1))

abbrev sw (x1 : (⟨S2x262144, .i32⟩ : BufTy).Contents (Elt Ideal)) : (⟨1, ![278528]⟩ : Shape).Idx → BitVec 32 :=
  val_main_v3 (F := Ideal) x1

abbrev dw (x1 : (⟨S2x262144, .i32⟩ : BufTy).Contents (Elt Ideal)) : (⟨1, ![278528]⟩ : Shape).Idx → BitVec 32 :=
  val_main_v6 (F := Ideal) x1

abbrev nrm (x1 : (⟨S2x262144, .i32⟩ : BufTy).Contents (Elt Ideal)) : (⟨1, ![278528]⟩ : Shape).Idx → EReal :=
  val_main_v29 (F := Ideal) x1

variable (x0 : (⟨S16384x256, .f32⟩ : BufTy).Contents (Elt Ideal)) (x1 : (⟨S2x262144, .i32⟩ : BufTy).Contents (Elt Ideal))
  (x2 : (⟨S16384x64, .f32⟩ : BufTy).Contents (Elt Ideal)) (x3 : (⟨S256x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal)) (x7 : (⟨S128x64, .f32⟩ : BufTy).Contents (Elt Ideal))
  (x8 : (⟨S64, .f32⟩ : BufTy).Contents (Elt Ideal))

theorem sidx_eq (e : Fin 278528) : val_main_v36 (F := Ideal) x1 (ix2 e (0 : Fin 1))
    = Scalar.select (IntOp.cmpi .slt (sw x1 (ix1 e)) 0#32) (IntOp.addi (sw x1 (ix1 e)) 16384#32) (sw x1 (ix1 e)) := by
  rw [val_main_v36_apply, idx1_ext (idx_main_v36 (ix2 e (0 : Fin 1))) e rfl, val_main_v35_apply,
    val_main_v32_apply, val_main_v34_apply, val_main_v31_apply, val_main_v33_apply,
    val_main_c_6_apply, val_main_c_7_apply]

theorem didx_eq (e : Fin 278528) : val_main_v42 (F := Ideal) x1 (ix2 e (0 : Fin 1)) = dw x1 (ix1 e) := by
  rw [val_main_v42_apply, idx1_ext (idx_main_v42 (ix2 e (0 : Fin 1))) e rfl]

theorem z_form (m e l : EReal) :
    FloatOps.addf (F := Ideal) (φ := .f32) m (FloatOps.mulf (F := Ideal) (φ := .f32) e
        (FloatOps.hostUnary (F := Ideal) (φ := .f32) .exp
          (FloatOps.mulf (F := Ideal) (φ := .f32) (FloatOps.ofBits .f32 0x3F000000#32) l)))
      = m + e * Ideal.exp (Ideal.ofBits .f32 0x3F000000#32 * l) := rfl

/-- `1 / (1 + e⁻ˢ)`, its `1` written as the binary word of `1.0`, is the logistic function. -/
theorem sigmoid_form (s : EReal) :
    FloatOps.hostDivf (F := Ideal) (φ := .f32) (FloatOps.ofBits .f32 0x3F800000#32)
        (FloatOps.addf (F := Ideal) (φ := .f32) (FloatOps.ofBits .f32 0x3F800000#32)
          (FloatOps.hostUnary (F := Ideal) (φ := .f32) .exp (FloatOps.hostNegf (F := Ideal) (φ := .f32) s)))
      = Ideal.logistic s := by
  show Ideal.div (Ideal.ofBits .f32 0x3F800000#32) (Ideal.ofBits .f32 0x3F800000#32 + Ideal.exp (-s)) = _
  rw [show Ideal.ofBits .f32 0x3F800000#32 = 1 from IdealRules.sign_bit.ideal_onePat .f32]
  rfl

section
variable (hs : ∀ e, 0 ≤ (sw x1 e).toInt ∧ (sw x1 e).toInt < 16384)
  (hd : ∀ e, 0 ≤ (dw x1 e).toInt ∧ (dw x1 e).toInt < 16384)
include hs hd

theorem conv1_eq (i : Fin 16384) (c : Fin 128) :
    (val_main_v43 (F := Ideal) x0 x1 x3 (ix2 i c) : EReal)
      = conv (sw x1) (dw x1) (nrm x1) (rowsOfArr (val_main_v30 (F := Ideal) x0 x3)) i c :=
  RefConv.conv_read (R := val_main_v43 (F := Ideal) x0 x1 x3) Gen.scatter_S16384x128_S278528x1_S278528x128_1_0_0_1_wf
    Gen.gather_S16384x128_S278528x1_S278528x128_1_0_n_n_0_1_1128_wf hs hd _
    (fun j => by rw [val_main_v41_apply, val_main_cst_8_apply]; exact Ideal.ofBits_zero_f32) (sidx_eq x1) (didx_eq x1)
    (fun e k => by rw [val_main_v39_apply, val_main_v38_apply, idx1_ext (idx_main_v38 (idx_main_v39 (ix2 e k))) e rfl])
    (val_main_v40_apply x0 x1 x3) rfl rfl i c

theorem hidden_eq (i : Fin 16384) (c : Fin 128) :
    val_main_v47 (F := Ideal) x0 x1 x3 x4 (ix2 i c) = hidden (sw x1) (dw x1) (nrm x1) x0 x3 x4 i c := by
  rw [val_main_v47_apply, val_main_v46_apply, conv1_eq x0 x1 x3 hs hd,
    val_main_v45_apply, val_main_v44_apply, idx1_ext (idx_main_v44 (idx_main_v45 (ix2 i c))) c rfl,
    val_main_call1_v0_apply, val_main_call1_cst_apply]
  show max (_ + _) (Ideal.ofBits .f32 0x00000000#32) = _
  rw [Ideal.ofBits_zero_f32]
  refine congrArg (fun t => max (conv _ _ _ t i c + _) 0) (funext fun i => funext fun j => ?_)
  show val_main_v30 (F := Ideal) x0 x3 (ix2 i j) = ∑ l : Fin 256, x0 (ix2 i l) * x3 (ix2 l j)
  rw [val_main_v30_apply]
  refine Finset.sum_congr rfl fun k _ => ?_
  rw [idx2_ext (lidx_main_v30 (ix2 i j) k) i k rfl rfl, idx2_ext (ridx_main_v30 (ix2 i j) k) k j rfl rfl]

/-- One output head: a convolution of the hidden layer times a weight matrix, plus a bias. -/
theorem mu_eq (i : Fin 16384) (c : Fin 64) :
    val_main_v64 (F := Ideal) x0 x1 x3 x4 x5 x6 (ix2 i c) = muOf (sw x1) (dw x1) (nrm x1) x0 x3 x4 x5 x6 i c := by
  rw [val_main_v64_apply, val_main_v63_apply, val_main_v62_apply, idx1_ext (idx_main_v62 (idx_main_v63 (ix2 i c))) c rfl,
    RefConv.conv_read (R := val_main_v61 (F := Ideal) x0 x1 x3 x4 x5) Gen.scatter_S16384x64_S278528x1_S278528x64_1_0_0_1_wf
      Gen.gather_S16384x64_S278528x1_S278528x64_1_0_n_n_0_1_164_wf hs hd (val_main_v48 (F := Ideal) x0 x1 x3 x4 x5)
      (fun j => by rw [val_main_v59_apply, val_main_cst_11_apply]; exact Ideal.ofBits_zero_f32) (sidx_eq x1) (didx_eq x1)
      (fun e k => by rw [val_main_v57_apply, val_main_v56_apply, idx1_ext (idx_main_v56 (idx_main_v57 (ix2 e k))) e rfl])
      (val_main_v58_apply x0 x1 x3 x4 x5) rfl rfl i c]
  refine congrArg (fun t => conv _ _ _ t i c + _) (funext fun i => funext fun j => ?_)
  show val_main_v48 (F := Ideal) x0 x1 x3 x4 x5 (ix2 i j)
    = ∑ l : Fin 128, hidden (sw x1) (dw x1) (nrm x1) x0 x3 x4 i l * x5 (ix2 l j)
  rw [val_main_v48_apply]
  refine Finset.sum_congr rfl fun k _ => ?_
  rw [idx2_ext (lidx_main_v48 (ix2 i j) k) i k rfl rfl, idx2_ext (ridx_main_v48 (ix2 i j) k) k j rfl rfl,
    hidden_eq x0 x1 x3 x4 hs hd]

/-- The second head is the first one at other weights and bias: operation for operation the same term. -/
theorem lv_eq (i : Fin 16384) (c : Fin 64) :
    val_main_v81 (F := Ideal) x0 x1 x3 x4 x7 x8 (ix2 i c) = lvOf (sw x1) (dw x1) (nrm x1) x0 x3 x4 x7 x8 i c :=
  mu_eq x0 x1 x3 x4 x7 x8 hs hd i c

theorem z_eq (i : Fin 16384) (c : Fin 64) :
    val_main_v86 (F := Ideal) x0 x1 x2 x3 x4 x5 x6 x7 x8 (ix2 i c)
      = zOf (sw x1) (dw x1) (nrm x1) x0 x2 x3 x4 x5 x6 x7 x8 i c := by
  rw [val_main_v86_apply, mu_eq x0 x1 x3 x4 x5 x6 hs hd, val_main_v85_apply, val_main_v84_apply, val_main_v83_apply,
    lv_eq x0 x1 x3 x4 x7 x8 hs hd, val_main_v82_apply, val_main_cst_15_apply, z_form]
  rfl

theorem recon_eq (i j : Fin 16384) :
    val_main_v94 (F := Ideal) x0 x1 x2 x3 x4 x5 x6 x7 x8 (ix2 i j)
      = reconOf (sw x1) (dw x1) (nrm x1) x0 x2 x3 x4 x5 x6 x7 x8 i j := by
  rw [val_main_v94_apply, val_main_v93_apply, val_main_cst_17_apply, val_main_v92_apply, val_main_v91_apply,
    val_main_cst_16_apply, val_main_v90_apply, val_main_v89_apply, val_main_v88_apply, sigmoid_form]
  refine congrArg Ideal.logistic (Finset.sum_congr rfl fun k _ => ?_)
  rw [idx2_ext (lidx_main_v88 (ix2 i j) k) i k rfl rfl, idx2_ext (ridx_main_v88 (ix2 i j) k) k j rfl rfl,
    val_main_v87_apply, idx2_ext (idx_main_v87 (ix2 k j)) j k rfl rfl,
    z_eq x0 x1 x2 x3 x4 x5 x6 x7 x8 hs hd, z_eq x0 x1 x2 x3 x4 x5 x6 x7 x8 hs hd]

end

end Cert.RefValues

end
-- ==== Proof.GraphFacts.lean ====
import proofs.«406303_j13073880449913_1_alg».proof.Proof.RefReadP
import Idealize.ShloMosaic.Lib.Pipeline.Value
import Idealize.ShloMosaic.Lib.ValueIdx
import Idealize.ShloMosaic.Lib.StableHlo.Predicate
import Idealize.ShloMosaic.PureOps.Ideal.Laws
import Mathlib.Data.EReal.Operations

noncomputable section

namespace Cert.GraphFacts

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- Appending the self loops `0 … 16383` to node numbers leaves every entry of the longer list a node number. -/
theorem concat_iota_range (hc : Shape.Concatenates [S262144, S16384] S278528 0) (y : S262144.Idx → BitVec 32)
    (hy : ∀ i : S262144.Idx, 0 ≤ (y i).toInt ∧ (y i).toInt < 16384) (e : S278528.Idx) :
    (fun w : BitVec 32 => 0 ≤ w.toInt ∧ w.toInt < 16384)
      (concatenate S278528 0 [⟨S262144, y⟩, ⟨S16384, iotaInDim S16384 32 0⟩] hc e) := by
  have he278 : (e 0).val < 278528 := (e 0).isLt
  by_cases he : (e 0).val < 262144
  · rw [concatenate_pair_apply_left (0 : Fin 1) y (iotaInDim S16384 32 0) hc e rfl
      (ix1 ⟨(e 0).val, he⟩) (fun b => match b with | ⟨0, _⟩ => rfl)]
    exact hy _
  · have he' : (e 0).val - 262144 < 16384 := by omega
    rw [concatenate_pair_apply_right (0 : Fin 1) y (iotaInDim S16384 32 0) hc e rfl rfl
      (ix1 ⟨(e 0).val - 262144, he'⟩)
      (fun b hb => absurd (match b with | ⟨0, _⟩ => rfl) hb)
      (by show (e 0).val - 262144 + 262144 = (e 0).val; omega)]
    show 0 ≤ (BitVec.ofNat 32 ((e 0).val - 262144)).toInt ∧ (BitVec.ofNat 32 ((e 0).val - 262144)).toInt < 16384
    rw [StableHlo.Predicate.toInt_ofNat_small _ (by omega)]
    omega

section Words
variable {F : FTy → Type} [FloatOps F] (x1 : (⟨S2x262144, .i32⟩ : BufTy).Contents (Elt F))
  (h : ∀ i : S2x262144.Idx, 0 ≤ (x1 i).toInt ∧ (x1 i).toInt < 16384)
include h

theorem src_range : ∀ e : S278528.Idx, 0 ≤ (val_main_v3 (F := F) x1 e).toInt ∧ (val_main_v3 (F := F) x1 e).toInt < 16384 :=
  concat_iota_range _ (val_main_v2 (F := F) x1) fun i => by rw [val_main_v2_apply, val_main_v1_apply]; exact h _

theorem dst_range : ∀ e : S278528.Idx, 0 ≤ (val_main_v6 (F := F) x1 e).toInt ∧ (val_main_v6 (F := F) x1 e).toInt < 16384 :=
  concat_iota_range _ (val_main_v5 (F := F) x1) fun i => by rw [val_main_v5_apply, val_main_v4_apply]; exact h _

end Words

/-- `rsqrt` is nonnegative on positive arguments, the infinite one included. -/
theorem rsqrt_nonneg_of_pos {x : EReal} (hx : 0 < x) : 0 ≤ Ideal.rsqrt x := by
  induction x using EReal.rec with
  | bot => exact absurd hx (by simp)
  | top => rw [Ideal.rsqrt_top]
  | coe r =>
    have hr : 0 < r := by exact_mod_cast hx
    rw [Ideal.rsqrt_coe, if_neg (not_lt.2 hr.le), if_neg hr.ne']
    exact_mod_cast inv_nonneg.2 (Real.sqrt_nonneg r)

/-- The normalising table holds `rsqrt` of a degree only where that degree is positive and `0` elsewhere, so it is nonnegative. -/
theorem dinv_nonneg (x1 : (⟨S2x262144, .i32⟩ : BufTy).Contents (Elt Ideal)) (i : S16384.Idx) :
    (0 : EReal) ≤ val_main_v14 (F := Ideal) x1 i := by
  rw [val_main_v14_apply, val_main_v12_apply, val_main_v13_apply, val_main_v11_apply, val_main_cst_1_apply,
    val_main_call0_v1_apply, val_main_call0_v0_apply, val_main_cst_2_apply, Ideal.cmpf_def, Ideal.hostUnary_rsqrt_def,
    Ideal.ofBits_def, Ideal.ofBits_zero_f32]
  generalize val_main_v10 (F := Ideal) x1 i = d
  unfold Scalar.select
  split
  · next hb =>
    refine rsqrt_nonneg_of_pos (by_contra fun hn => ?_)
    simp only [Ideal.cmp, hn, decide_false] at hb
    exact absurd hb (by decide)
  · exact le_refl _

/-- An edge weight is a product of two entries of that table. -/
theorem nrm_nonneg (x1 : (⟨S2x262144, .i32⟩ : BufTy).Contents (Elt Ideal)) (e : S278528.Idx) :
    (0 : EReal) ≤ val_main_v29 (F := Ideal) x1 e := by
  rw [val_main_v29_apply]
  exact EReal.mul_nonneg (by unfold val_main_v21 Host.gather; exact dinv_nonneg x1 _)
    (by unfold val_main_v28 Host.gather; exact dinv_nonneg x1 _)

end Cert.GraphFacts

end
-- ==== Proof.KI.HostValsA.lean ====
import proofs.«406303_j13073880449913_1_alg».proof.Proof.Gen.KernelIdeal.Regions
import proofs.«406303_j13073880449913_1_alg».proof.Proof.GraphFacts
import proofs.«406303_j13073880449913_1_alg».proof.Proof.Layers
import proofs.«406303_j13073880449913_1_alg».proof.Proof.LibScatterRows
import Idealize.ShloMosaic.Lib.ValueLayout

noncomputable section

namespace Cert.KernelIdeal.HandV

open Cert.KernelIdeal Cert.KernelIdeal.Gen Idealize.ShloMosaic Idealize.ShloMosaic.TcCoe
open Idealize.SL.Sem Idealize.ShloMosaic.StableHlo Idealize.ShloMosaic.ValueIdx Idealize.ShloMosaic.SegSum
open Cert.ReferenceIdeal.ReadP Cert.GraphSpec Cert.Layers

theorem toNat_lt {a : BitVec 32} (h : 0 ≤ a.toInt ∧ a.toInt < 16384) : a.toNat < 16384 := by
  have hc := BitVec.toInt_eq_toNat_cond a
  have hl := a.isLt
  split at hc <;> omega

/-- For node numbers `d`, `s` the word `d * 16384 + s` does not overflow, and it names the pair. -/
theorem flat_iff {d s : BitVec 32} (hd : 0 ≤ d.toInt ∧ d.toInt < 16384) (hs : 0 ≤ s.toInt ∧ s.toInt < 16384) (i j : Fin 16384) :
    (d * 16384#32 + s).toInt = ((i.val * 16384 + j.val : ℕ) : Int) ↔ node d = i ∧ node s = j := by
  have hd' := toNat_lt hd
  have hs' := toNat_lt hs
  have hN : (d * 16384#32 + s).toNat = d.toNat * 16384 + s.toNat := by
    rw [BitVec.toNat_add, BitVec.toNat_mul, show (16384#32 : BitVec 32).toNat = 16384 from rfl]
    omega
  rw [BitVec.toInt_eq_toNat_of_lt (by omega), hN, Fin.ext_iff, Fin.ext_iff]
  show _ ↔ d.toNat % 16384 = i.val ∧ s.toNat % 16384 = j.val
  omega

/-- The edge weights scattered into zeros at the flat positions `dst * 16384 + src`, read at `i * 16384 + j`: the total weight of the edges from `j` to `i`. -/
theorem flat_scatter_adj (wf : ScatterDims.WF ⟨1, ![268435456]⟩ ⟨2, ![278528, 1]⟩ ⟨1, ![278528]⟩ [] [0] [0] 1)
    (sw dw : (⟨1, ![278528]⟩ : Shape).Idx → BitVec 32) (nrm : (⟨1, ![278528]⟩ : Shape).Idx → EReal)
    (hs : ∀ e, 0 ≤ (sw e).toInt ∧ (sw e).toInt < 16384) (hd : ∀ e, 0 ≤ (dw e).toInt ∧ (dw e).toInt < 16384)
    (x : (⟨1, ![268435456]⟩ : Shape).Idx → EReal) (hx : ∀ n, x n = 0)
    (idx : IVec ⟨2, ![278528, 1]⟩ 32) (hidx : ∀ e : Fin 278528, idx (ix2 e (0 : Fin 1)) = dw (ix1 e) * 16384#32 + sw (ix1 e))
    (i j : Fin 16384) (n : Fin 268435456) (hn : n.val = i.val * 16384 + j.val) :
    Ideal.hostScatterAdd (flatDims 268435456 278528 wf) x idx nrm (ix1 n) = adj (nodeAt sw) (nodeAt dw) (fun e => nrm (ix1 e)) i j := by
  rw [hostScatterAdd_flat_apply, hx, zero_add]
  unfold adj rowsOf
  rw [Finset.sum_filter]
  refine Finset.sum_congr rfl fun e _ => if_congr ?_ rfl rfl
  rw [hidx, hn]
  exact flat_iff (hd _) (hs _) i j

section
variable {F : FTy → Type} [FloatOps F] (m : (ℓ : Loc nD τ sig) → Buf (Elt F) ℓ) (c : Dev nD)

theorem V2_v3 : V2 m c main_v3 = val_main_v3 (F := F) (m ((c : Thread nD τ).loc main_arg1)) := by
  show StableHlo.after hostOps0_1 (StableHlo.after hostOps0 (V0 m c)) (Proc.devRef .tc main_v3) = _
  after_results
  rfl

theorem V2_v6 : V2 m c main_v6 = val_main_v6 (F := F) (m ((c : Thread nD τ).loc main_arg1)) := by
  show StableHlo.after hostOps0_1 (StableHlo.after hostOps0 (V0 m c)) (Proc.devRef .tc main_v6) = _
  after_results
  rfl

theorem V3_v29 : V3 m c main_v29 = val_main_v29 (F := F) (m ((c : Thread nD τ).loc main_arg1)) := by
  show StableHlo.after hostOps0_2 (StableHlo.after hostOps0_1 (StableHlo.after hostOps0 (V0 m c))) (Proc.devRef .tc main_v29) = _
  after_results_simp
  rfl

/-- Whatever the third stretch starts from, its matrix is the scatter of the edge weights at the words `dst * 16384 + src`, reshaped. -/
theorem s2_v37 (W : Valuation τ sig (Elt F)) :
    StableHlo.after hostOps0_2 W (Proc.devRef .tc main_v37)
      = truncf .bf16 (fun i => shapeCast S16384x16384
          (Host.scatterAdd scatter_S268435456_S278528x1_S278528_n_0_0_1
            (broadcastInDim S268435456 ![] bcast_S_S268435456 (constant S_ .f32 0x00000000#32 : (⟨S_, .f32⟩ : BufTy).Contents (Elt F)))
            (broadcastInDim S278528x1 ![0] bcast_S278528_S278528x1_0
              (addi (muli (W main_v6 : (⟨S278528, .i32⟩ : BufTy).Contents (Elt F))
                  (broadcastInDim S278528 ![] bcast_S_S278528 (constantI S_ 32 16384#32)))
                (W main_v3 : (⟨S278528, .i32⟩ : BufTy).Contents (Elt F))))
            (StableHlo.after hostOps0_2 W (Proc.devRef .tc main_v29) : (⟨S278528, .f32⟩ : BufTy).Contents (Elt F)))
          shapeCasts_S268435456_S16384x16384 i) bitsLt_bf16_f32 := by
  after_results_simp <;> rfl

theorem s2_v39 (W : Valuation τ sig (Elt F)) :
    StableHlo.after hostOps0_2 W (Proc.devRef .tc main_v39) = truncf .bf16 (val_main_v30 (F := F) (W main_arg0) (W main_arg3)) bitsLt_bf16_f32 := by
  after_results_simp <;> rfl

theorem s2_v40 (W : Valuation τ sig (Elt F)) :
    StableHlo.after hostOps0_2 W (Proc.devRef .tc main_v40)
      = fun i => shapeCast S1x128 (W main_arg4 : (⟨S128, .f32⟩ : BufTy).Contents (Elt F)) shapeCasts_S128_S1x128 i := by
  after_results_simp <;> rfl

/-- What the first two stretches do not write is still the launch contents. -/
theorem V2_launch (r : Ref sig .tc) (h : r ∉ hostOps0_W ∧ r ∉ hostOps0_1_W) : V2 m c r = V0 m c r :=
  (V2_of m c r h.2).trans (V1_of m c r h.1)

end

variable (m : (ℓ : Loc nD τ sig) → Buf (Elt Ideal) ℓ) (c : Dev nD)

abbrev argX : (⟨2, ![16384, 256]⟩ : Shape).Idx → EReal := m ((c : Thread nD τ).loc main_arg0)
abbrev argEdges : (⟨Cert.ReferenceIdeal.S2x262144, .i32⟩ : BufTy).Contents (Elt Ideal) := m ((c : Thread nD τ).loc main_arg1)
abbrev argW1 : (⟨2, ![256, 128]⟩ : Shape).Idx → EReal := m ((c : Thread nD τ).loc main_arg3)
abbrev argB1 : (⟨1, ![128]⟩ : Shape).Idx → EReal := m ((c : Thread nD τ).loc main_arg4)
abbrev srcW : (⟨1, ![278528]⟩ : Shape).Idx → BitVec 32 := val_main_v3 (F := Ideal) (argEdges m c)
abbrev dstW : (⟨1, ![278528]⟩ : Shape).Idx → BitVec 32 := val_main_v6 (F := Ideal) (argEdges m c)
abbrev nrmW : (⟨1, ![278528]⟩ : Shape).Idx → EReal := val_main_v29 (F := Ideal) (argEdges m c)

/-- Entry `(i, j)` of the matrix handed to the first region is the total weight of the edges from `j` to `i`. -/
theorem V3_v37_apply (hs : ∀ e, 0 ≤ (srcW m c e).toInt ∧ (srcW m c e).toInt < 16384) (hd : ∀ e, 0 ≤ (dstW m c e).toInt ∧ (dstW m c e).toInt < 16384)
    (i j : Fin 16384) :
    V3 m c main_v37 (ix2 i j) = adj (nodeAt (srcW m c)) (nodeAt (dstW m c)) (fun e => nrmW m c (ix1 e)) i j := by
  have hi := i.isLt
  have hj := j.isLt
  have hn : i.val * 16384 + j.val < 268435456 := by omega
  refine (congrFun (s2_v37 (V2 m c)) (ix2 i j)).trans ?_
  rw [V2_v3, V2_v6, show StableHlo.after hostOps0_2 (V2 m c) (Proc.devRef .tc main_v29) = _ from V3_v29 m c, truncf_apply,
    shapeCast_apply _ shapeCasts_S268435456_S16384x16384 (ix2 i j) (ix1 ⟨i.val * 16384 + j.val, hn⟩)
      (by rw [Shape.rowMajor_val_one, Shape.rowMajor_val_two]; rfl)]
  exact flat_scatter_adj _ _ _ _ hs hd _ (fun n => Ideal.ofBits_zero_f32) _ (fun e =>
    broadcastInDim_apply _ bcast_S278528_S278528x1_0 _ (ix2 e (0 : Fin 1)) (ix1 e) fun a => match a with
      | ⟨0, _⟩ => by show e.val = if (278528 : Nat) = 1 then 0 else e.val; rw [if_neg (by decide)]) i j _ rfl

/-- The first layer's dense product at an entry: a row of the features against a column of the weights. -/
theorem V3_v39_apply (i : Fin 16384) (k : Fin 128) :
    V3 m c main_v39 (ix2 i k) = mm (rowsOfArr (argX m c)) (argW1 m c) i k := by
  refine (congrFun (s2_v39 (V2 m c)) (ix2 i k)).trans ?_
  rw [V2_launch m c main_arg0 (by decide), V2_launch m c main_arg3 (by decide), truncf_apply]
  exact (val_main_v30_apply _ _ _).trans <| Finset.sum_congr rfl fun q _ => congrArg₂ (fun a b => argX m c a * argW1 m c b)
    (funext fun a => match a with | ⟨0, _⟩ => rfl | ⟨1, _⟩ => rfl) (funext fun a => match a with | ⟨0, _⟩ => rfl | ⟨1, _⟩ => rfl)

theorem V3_v40_apply (k : Fin 128) : V3 m c main_v40 (ix2 (0 : Fin 1) k) = argB1 m c (ix1 k) := by
  refine (congrFun (s2_v40 (V2 m c)) _).trans ?_
  rw [V2_launch m c main_arg4 (by decide)]
  exact shapeCast_a_1a_apply _ _ 0 k

end Cert.KernelIdeal.HandV

end
-- ==== Proof.KI.HostValsB.lean ====
import proofs.«406303_j13073880449913_1_alg».proof.Proof.Gen.KernelIdeal.Regions
import proofs.«406303_j13073880449913_1_alg».proof.Proof.RefReadP
import Idealize.ShloMosaic.Lib.IdealHost
import Idealize.ShloMosaic.Lib.ValueLayout

noncomputable section

namespace Cert.KernelIdeal.HandV

open Cert.KernelIdeal Cert.KernelIdeal.Gen Cert.ReferenceIdeal.ReadP
open Idealize.ShloMosaic Idealize.ShloMosaic.TcCoe Idealize.ShloMosaic.ValueIdx Idealize.ShloMosaic.StableHlo

variable (m : (ℓ : Loc nD τ sig) → Buf (Elt Ideal) ℓ) (outs : Outs (F := Ideal)) (c : Dev nD)

abbrev argEps : S16384x64.Idx → EReal := m ((c : Thread nD τ).loc main_arg2)
abbrev argWmu : S128x64.Idx → EReal := m ((c : Thread nD τ).loc main_arg5)
abbrev argBmu : S64.Idx → EReal := m ((c : Thread nD τ).loc main_arg6)
abbrev argWlv : S128x64.Idx → EReal := m ((c : Thread nD τ).loc main_arg7)
abbrev argBlv : S64.Idx → EReal := m ((c : Thread nD τ).loc main_arg8)
abbrev hidOut : S16384x128.Idx → EReal := outs 4 main_v41 c
abbrev muOut : S16384x64.Idx → EReal := outs 6 main_v45 c
abbrev lvOut : S16384x64.Idx → EReal := outs 8 main_v49 c

/-- A [16384,128] table times [128,64] weights at an entry: the table's row against the weights' column. -/
theorem proj_apply (y : FVec Ideal S16384x128 .f32) (w : FVec Ideal S128x64 .f32) (i : Fin 16384) (k : Fin 64) :
    Host.dotGeneral (F := Ideal) (φ₁ := .f32) (φ₂ := .f32) dot_S16384x128_S128x64_S16384x64_1_0_0_1_n_n none y w (ix2 i k)
      = ∑ l : Fin 128, y (ix2 i l) * w (ix2 l k) := by
  simp only [Host.dotGeneral]
  rw [Ideal.dotGeneral_apply, ← Equiv.sum_comp (contrEquiv1 dot_S16384x128_S128x64_S16384x64_1_0_0_1_n_n 128 rfl rfl).symm]
  refine Finset.sum_congr rfl fun l _ => ?_
  have hl := contrEquiv1_symm_val dot_S16384x128_S128x64_S16384x64_1_0_0_1_n_n 128 rfl rfl l
  exact congrArg₂ (fun a b => y a * w b)
    (funext fun a => Fin.ext (match a with | ⟨0, _⟩ => lhs_main_v48_0 _ _ | ⟨1, _⟩ => (lhs_main_v48_1 _ _).trans hl))
    (funext fun a => Fin.ext (match a with | ⟨0, _⟩ => (rhs_main_v48_0 _ _).trans hl | ⟨1, _⟩ => rhs_main_v48_1 _ _))

/-- A buffer that no item up to the third region writes still holds what it was launched with. -/
theorem launch (r : Ref sig .tc) (h : r ∉ hostOps0_W ∧ r ∉ hostOps0_1_W ∧ r ∉ hostOps0_2_W ∧ r ∉ ([main_v41] : List (Ref sig .tc))
      ∧ r ∉ hostOps1_W ∧ r ∉ ([main_v45] : List (Ref sig .tc)) ∧ r ∉ hostOps2_W ∧ r ∉ ([main_v49] : List (Ref sig .tc))) :
    V4 m outs c r = V0 m c r ∧ V6 m outs c r = V0 m c r ∧ V8 m outs c r = V0 m c r := by
  obtain ⟨h1, h2, h3, h4, h5, h6, h7, h8⟩ := h
  have e4 := (V4_of m outs c r h4).trans <| (V3_of m c r h3).trans <| (V2_of m c r h2).trans (V1_of m c r h1)
  have e6 := (V6_of m outs c r h6).trans <| (V5_of m outs c r h5).trans e4
  exact ⟨e4, e6, (V8_of m outs c r h8).trans <| (V7_of m outs c r h7).trans e6⟩

theorem V5_main_v37 : V5 m outs c main_v37 = V3 m c main_v37 :=
  (V5_of m outs c main_v37 (by decide)).trans (V4_of m outs c main_v37 (by decide))

theorem V7_main_v37 : V7 m outs c main_v37 = V3 m c main_v37 :=
  (V7_of m outs c main_v37 (by decide)).trans <| (V6_of m outs c main_v37 (by decide)).trans (V5_main_v37 m outs c)

theorem V6_main_v41 : V6 m outs c main_v41 = outs 4 main_v41 c :=
  (V6_of m outs c main_v41 (by decide)).trans <| (V5_of m outs c main_v41 (by decide)).trans (Function.update_self _ _ _)

theorem V8_main_v45 : V8 m outs c main_v45 = outs 6 main_v45 c :=
  (V8_of m outs c main_v45 (by decide)).trans <| (V7_of m outs c main_v45 (by decide)).trans (Function.update_self _ _ _)

theorem V10_main_v45 : V10 m outs c main_v45 = outs 6 main_v45 c :=
  (V10_of m outs c main_v45 (by decide)).trans <| (V9_of m outs c main_v45 (by decide)).trans (V8_main_v45 m outs c)

theorem V10_main_v49 : V10 m outs c main_v49 = outs 8 main_v49 c :=
  (V10_of m outs c main_v49 (by decide)).trans <| (V9_of m outs c main_v49 (by decide)).trans (Function.update_self _ _ _)

/-- The mean layer's product where the second region reads it: the hidden layer's row against the weights' column. -/
theorem V5_main_v43_apply (j : Fin 16384) (k : Fin 64) :
    V5 m outs c main_v43 (ix2 j k) = ∑ l : Fin 128, hidOut outs c (ix2 j l) * argWmu m c (ix2 l k) := by
  show StableHlo.after hostOps1 (V4 m outs c) (Proc.devRef .tc main_v43) _ = _
  after_results
  rw [(launch m outs c main_arg5 (by decide)).1, show V4 m outs c main_v41 = outs 4 main_v41 c from Function.update_self _ _ _]
  exact proj_apply _ _ j k

theorem V5_main_v44_apply (k : Fin 64) : V5 m outs c main_v44 (ix2 (0 : Fin 1) k) = argBmu m c (ix1 k) := by
  show StableHlo.after hostOps1 (V4 m outs c) (Proc.devRef .tc main_v44) _ = _
  after_results
  rw [(launch m outs c main_arg6 (by decide)).1]
  exact shapeCast_a_1a_apply _ _ 0 k

theorem V7_main_v47_apply (j : Fin 16384) (k : Fin 64) :
    V7 m outs c main_v47 (ix2 j k) = ∑ l : Fin 128, hidOut outs c (ix2 j l) * argWlv m c (ix2 l k) := by
  show StableHlo.after hostOps2 (V6 m outs c) (Proc.devRef .tc main_v47) _ = _
  after_results
  rw [(launch m outs c main_arg7 (by decide)).2.1, V6_main_v41]
  exact proj_apply _ _ j k

theorem V7_main_v48_apply (k : Fin 64) : V7 m outs c main_v48 (ix2 (0 : Fin 1) k) = argBlv m c (ix1 k) := by
  show StableHlo.after hostOps2 (V6 m outs c) (Proc.devRef .tc main_v48) _ = _
  after_results
  rw [(launch m outs c main_arg8 (by decide)).2.1]
  exact shapeCast_a_1a_apply _ _ 0 k

/-- The latent table the decoder region is entered with: the mean plus the noise times the exponential of half the log-variance. -/
theorem V9_main_v55_apply (i : Fin 16384) (k : Fin 64) :
    V9 m outs c main_v55 (ix2 i k)
      = muOut outs c (ix2 i k) + argEps m c (ix2 i k) * Ideal.exp (Ideal.ofBits .f32 0x3F000000#32 * lvOut outs c (ix2 i k)) := by
  show StableHlo.after hostOps3 (V8 m outs c) (Proc.devRef .tc main_v55) _ = _
  after_results
  rw [(launch m outs c main_arg2 (by decide)).2.2, V8_main_v45, show V8 m outs c main_v49 = outs 8 main_v49 c from Function.update_self _ _ _]
  show (_ : EReal) + _ * Ideal.exp (broadcastInDim _ _ _ _ _ * _) = _
  rw [broadcastInDim_scalar_apply]
  rfl

end Cert.KernelIdeal.HandV

end
-- ==== Proof.KI.Agg0Value.lean ====
import proofs.«406303_j13073880449913_1_alg».proof.Proof.KI.Agg0
import proofs.«406303_j13073880449913_1_alg».proof.Proof.GraphSpec
import Idealize.ShloMosaic.Lib.ValueLayout
import Idealize.ShloMosaic.PureOps.Ideal.Laws

noncomputable section

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem

section Pieces
variable {F : FTy → Type} [FloatOps F] (c : Dev nD) (i : grid0.Coords)
  (a2 : Memref sig .tc .vmem S2048x2048 .bf16) (h2 : a2.IsWhole) (a3 : Memref sig .tc .vmem S2048x128 .bf16) (h3 : a3.IsWhole)
  (a4 : Memref sig .tc .vmem S1x128 .f32) (h4 : a4.IsWhole) (a5 : Memref sig .tc .vmem S2048x128 .f32) (h5 : a5.IsWhole)
  (a6 : Memref sig .tc .vmem S2048x128 .f32) (h6 : a6.IsWhole)
  (x0 : Vec F S2048x2048 .bf16) (x1 : Vec F S2048x128 .bf16) (x2 : Vec F S1x128 .f32) (xs0 : Vec F S2048x128 .f32)

theorem hz_r0 : (![0, 0] : Fin 2 → Nat) = fun _ => 0 := funext fun a => by fin_cases a <;> rfl

/-- What one point leaves: off the reset points the accumulator plus one block product, at a row block's last point also the stored block, at a reset point the zero block plus one block product. -/
theorem pieces_r0 :
    (∀ (hc0 : ¬cond0_0 i) (hc1 : ¬cond0_1 i),
      rd0 (kernelRun0_B c i a2 h2 a3 h3 a4 h4 a5 h5 a6 h6 hc0 hc1 x0 x1 x2 xs0).2.1 = k0_pay2 xs0 x0 x1)
    ∧ (∀ (hc0 : ¬cond0_0 i) (hc1 : cond0_1 i),
      rd0 (kernelRun0_C c i a2 h2 a3 h3 a4 h4 a5 h5 a6 h6 hc0 hc1 x0 x1 x2 xs0).2.1 = k0_pay2 xs0 x0 x1
      ∧ rd0 (kernelRun0_C c i a2 h2 a3 h3 a4 h4 a5 h5 a6 h6 hc0 hc1 x0 x1 x2 xs0).1 = k0_pay3 (k0_pay2 xs0 x0 x1) x2)
    ∧ ∀ (hc0 : cond0_0 i) (hc1 : ¬cond0_1 i),
      rd0 (kernelRun0_A c i a2 h2 a3 h3 a4 h4 a5 h5 a6 h6 hc0 hc1 x0 x1 x2).2.1 = k0_pay2 (k0_pay1 (F := F)) x0 x1 := by
  refine ⟨fun hc0 hc1 => ?_, fun hc0 hc1 => ⟨?_, ?_⟩, fun hc0 hc1 => ?_⟩ <;>
  · unfold rd0
    rw [View.read_writes_eq_canon _ _ _ (View.cover_of_tiledL _ S2048x128.size (by sl_kernel_rfl))]
    first | unfold kernelRun0_A | unfold kernelRun0_B | unfold kernelRun0_C
    dsimp only
    sl_unfold_words
    first
      | rw [View.canon_cons_unit_zero (S := S2048x128) hz_r0, View.readCov_unit_zero (S := S2048x128) _ hz_r0]
      | rw [View.canon_unit_zero hz_r0]
    simp only [View.readAt_eq_ld, h2.read_unread, h3.read_unread, h4.read_unread, h6.read_unread, View.readCov_unit_zero (S := S2048x128) _ hz_r0,
      View.ld_unit_zero (S := S2048x128) hz_r0, View.ld_unit_zero (S := S2048x2048) hz_r0, View.ld_unit_zero (S := S1x128) hz_r0]

end Pieces

section IdealValues

abbrev D_r0 : DotDims S2048x2048 S2048x128 S2048x128 := dot_S2048x2048_S2048x128_S2048x128_1_0_0_1_n_n

def cE_r0 : D_r0.contr.Idx ≃ Fin 2048 := contrEquiv1 D_r0 2048 rfl rfl

theorem pay1_apply_r0 (y : S2048x128.Idx) : k0_pay1 (F := Ideal) y = 0 := by
  unfold k0_pay1
  simp only [shapeCast_self]
  exact Ideal.ofBits_zero_f32

theorem pay2_apply_r0 (acc : Vec Ideal S2048x128 .f32) (xa : Vec Ideal S2048x2048 .bf16) (xh : Vec Ideal S2048x128 .bf16)
    (p : Fin 2048) (q : Fin 128) :
    k0_pay2 acc xa xh (ix2 p q) = acc (ix2 p q) + ∑ j : Fin 2048, xa (ix2 p j) * xh (ix2 j q) := by
  unfold k0_pay2
  simp only [shapeCast_self]
  refine congrArg (acc (ix2 p q) + ·) ?_
  refine (Ideal.matmul_constant_zero_apply (φ₁ := .bf16) (φ₂ := .bf16) D_r0 none xa xh (ix2 p q)).trans ?_
  refine (Equiv.sum_comp cE_r0.symm _).symm.trans ?_
  refine Finset.sum_congr rfl fun j _ => ?_
  congr 2 <;> refine Shape.idx_ext₂ ?_ ?_ <;>
    simp [DotDims.lhsIdx, DotDims.rhsIdx, D_r0, dot_S2048x2048_S2048x128_S2048x128_1_0_0_1_n_n, cE_r0, contrEquiv1] <;> rfl

/-- How the finished accumulator and its column's bias entry combine into the output entry: the one thing in which the aggregation regions differ. -/
def epi_r0 (s b : EReal) : EReal := max (s + b) 0

theorem pay3_apply_r0 (acc : Vec Ideal S2048x128 .f32) (bias : Vec Ideal S1x128 .f32) (p : Fin 2048) (q : Fin 128) :
    k0_pay3 acc bias (ix2 p q) = epi_r0 (acc (ix2 p q)) (bias (ix2 (0 : Fin 1) q)) := by
  unfold k0_pay3 epi_r0
  simp only [shapeCast_self]
  show max (acc (ix2 p q) + broadcastTo S2048x128 bias _ (ix2 p q)) (Ideal.ofBits .f32 0x00000000#32)
    = max (acc (ix2 p q) + bias (ix2 (0 : Fin 1) q)) 0
  rw [Ideal.ofBits_zero_f32, broadcastTo_1b_ab_apply bias _ p q]

end IdealValues

section Region
variable (V : (c : Dev nD) → (b : Ref sig .tc) → Buf (Elt Ideal) ((c : Thread nD τ).loc b))

abbrev Aarr_r0 (c : Dev nD) : Vec Ideal S16384x16384 .bf16 := V c main_v37
abbrev Harr_r0 (c : Dev nD) : Vec Ideal S16384x128 .bf16 := V c main_v39
abbrev barr_r0 (c : Dev nD) : Vec Ideal S1x128 .f32 := V c main_v40

abbrev ablk_r0 (c : Dev nD) (t : Fin cfg0.N) : Vec Ideal S2048x2048 .bf16 := iblk0 V c 0 t
abbrev hblk_r0 (c : Dev nD) (t : Fin cfg0.N) : Vec Ideal S2048x128 .bf16 := iblk0 V c 1 t
abbrev bblk_r0 (c : Dev nD) (t : Fin cfg0.N) : Vec Ideal S1x128 .f32 := iblk0 V c 2 t

theorem widx0_r0 : ∀ t : Fin cfg0.N, win0_0.index t 0 = t.val / 8 ∧ win0_0.index t 1 = t.val % 8 := by decide +kernel
theorem widx1_r0 : ∀ t : Fin cfg0.N, win0_1.index t 0 = t.val % 8 ∧ win0_1.index t 1 = 0 := by decide +kernel
theorem widx2_r0 : ∀ t : Fin cfg0.N, win0_2.index t 0 = 0 ∧ win0_2.index t 1 = 0 := by decide +kernel
theorem widx3_r0 : ∀ t : Fin cfg0.N, win0_3.index t 0 = t.val / 8 ∧ win0_3.index t 1 = 0 := by decide +kernel

theorem ablk_apply_r0 (c : Dev nD) (t : Fin cfg0.N) (I b : ℕ) (hI : t.val / 8 = I) (hb : t.val % 8 = b) (hI8 : I < 8) (hb8 : b < 8)
    (p j : Fin 2048) :
    ablk_r0 V c t (ix2 p j) = Aarr_r0 V c (ix2 (⟨2048 * I + p.val, by omega⟩ : Fin 16384) (⟨b * 2048 + j.val, by omega⟩ : Fin 16384)) := by
  unfold ablk_r0 iblk0
  rw [View.read_apply]
  refine congrArg (V c main_v37) (funext fun a => Fin.ext ?_)
  match a with
  | ⟨0, _⟩ => show win0_0.index t 0 * 2048 + 1 * p.val = 2048 * I + p.val; rw [(widx0_r0 t).1, hI]; omega
  | ⟨1, _⟩ => show win0_0.index t 1 * 2048 + 1 * j.val = b * 2048 + j.val; rw [(widx0_r0 t).2, hb]; omega

theorem hblk_apply_r0 (c : Dev nD) (t : Fin cfg0.N) (b : ℕ) (hb : t.val % 8 = b) (hb8 : b < 8) (j : Fin 2048) (q : Fin 128) :
    hblk_r0 V c t (ix2 j q) = Harr_r0 V c (ix2 (⟨b * 2048 + j.val, by omega⟩ : Fin 16384) q) := by
  unfold hblk_r0 iblk0
  rw [View.read_apply]
  refine congrArg (V c main_v39) (funext fun a => Fin.ext ?_)
  match a with
  | ⟨0, _⟩ => show win0_1.index t 0 * 2048 + 1 * j.val = b * 2048 + j.val; rw [(widx1_r0 t).1, hb]; omega
  | ⟨1, _⟩ => show win0_1.index t 1 * 128 + 1 * q.val = q.val; rw [(widx1_r0 t).2]; omega

theorem bblk_apply_r0 (c : Dev nD) (t : Fin cfg0.N) (q : Fin 128) :
    bblk_r0 V c t (ix2 (0 : Fin 1) q) = barr_r0 V c (ix2 (0 : Fin 1) q) := by
  unfold bblk_r0 iblk0
  rw [View.read_apply]
  refine congrArg (V c main_v40) (funext fun a => Fin.ext ?_)
  match a with
  | ⟨0, _⟩ => show win0_2.index t 0 * 1 + 1 * 0 = 0; rw [(widx2_r0 t).1]
  | ⟨1, _⟩ => show win0_2.index t 1 * 128 + 1 * q.val = q.val; rw [(widx2_r0 t).2]; omega

def blockTerm_r0 (c : Dev nD) (I b : ℕ) (p : Fin 2048) (q : Fin 128) : EReal :=
  if h : I < 8 ∧ b < 8 then
    ∑ j : Fin 2048, Aarr_r0 V c (ix2 (⟨2048 * I + p.val, by omega⟩ : Fin 16384) (⟨b * 2048 + j.val, by omega⟩ : Fin 16384))
      * Harr_r0 V c (ix2 (⟨b * 2048 + j.val, by omega⟩ : Fin 16384) q)
  else 0

theorem step_sum_r0 (c : Dev nD) (t : Fin cfg0.N) (I b : ℕ) (hI : t.val / 8 = I) (hb : t.val % 8 = b) (hI8 : I < 8) (hb8 : b < 8)
    (p : Fin 2048) (q : Fin 128) :
    ∑ j : Fin 2048, ablk_r0 V c t (ix2 p j) * hblk_r0 V c t (ix2 j q) = blockTerm_r0 V c I b p q := by
  unfold blockTerm_r0
  rw [dif_pos ⟨hI8, hb8⟩]
  exact Finset.sum_congr rfl fun j _ => by rw [ablk_apply_r0 V c t I b hI hb hI8 hb8 p j, hblk_apply_r0 V c t b hb hb8 j q]

/-- One point's step at row `p`, column `q`: a reset point starts from zero, any other from what it finds, and adds its run's term. -/
theorem acc_step_r0 (c : Dev nD) (t : Fin cfg0.N) (p : Fin 2048) (q : Fin 128) :
    accAt0 V c t.val t.isLt (ix2 p q)
      = (if t.val % 8 = 0 then 0 else accIn0 V c t (ix2 p q)) + blockTerm_r0 V c (t.val / 8) (t.val % 8) p q := by
  have hN : t.val < 8 * 8 := lt_of_lt_of_eq t.isLt (show cfg0.N = 8 * 8 from N_0)
  have hs := step_sum_r0 V c t _ _ rfl rfl (by omega) (by omega) p q
  have hp := pieces_r0 c (grid0.coords t) (ms0_0 t) (hs0_0 t) (ms0_1 t) (hs0_1 t) (ms0_2 t) (hs0_2 t) (ms0_3 t) (hs0_3 t) scM0_0 (Memref.isWhole_whole _) (ablk_r0 V c t) (hblk_r0 V c t) (bblk_r0 V c t) (accIn0 V c t)
  by_cases h0 : t.val % 8 = 0
  · rw [accAt0_A V c t h0, if_pos h0, hp.2.2 _ _, pay2_apply_r0, pay1_apply_r0, hs]
  · rw [if_neg h0]
    by_cases h1 : t.val % 8 = 7
    · rw [accAt0_C V c t h1, (hp.2.1 _ _).1, pay2_apply_r0, hs]
    · rw [accAt0_B V c t h0 h1, hp.1 _ _, pay2_apply_r0, hs]

/-- The accumulator after point `n` holds the sum of the runs `0 … n % 8` of its row block. -/
theorem acc_eq_r0 (c : Dev nD) (n : ℕ) (hn : n < cfg0.N) (p : Fin 2048) (q : Fin 128) :
    accAt0 V c n hn (ix2 p q) = ∑ b ∈ Finset.range (n % 8 + 1), blockTerm_r0 V c (n / 8) b p q := by
  induction n with
  | zero => exact (acc_step_r0 V c ⟨0, hn⟩ p q).trans (by simp)
  | succ n ih =>
    refine (acc_step_r0 V c ⟨n + 1, hn⟩ p q).trans ?_
    by_cases h0 : (n + 1) % 8 = 0
    · rw [if_pos h0, h0]; simp
    · rw [if_neg h0, show accIn0 V c ⟨n + 1, hn⟩ = accAt0 V c n (Nat.lt_of_succ_lt hn) from rfl, ih,
        show n / 8 = (n + 1) / 8 by omega, show (n + 1) % 8 = n % 8 + 1 by omega, Finset.sum_range_succ _ (n % 8 + 1)]

end Region

section Final
variable (V : (c : Dev nD) → (b : Ref sig .tc) → Buf (Elt Ideal) ((c : Thread nD τ).loc b))

theorem runs_sum_r0 (c : Dev nD) (I : ℕ) (hI : I < 8) (p : Fin 2048) (q : Fin 128) :
    ∑ b ∈ Finset.range 8, blockTerm_r0 V c I b p q
      = ∑ j : Fin 16384, Aarr_r0 V c (ix2 (⟨2048 * I + p.val, by omega⟩ : Fin 16384) j) * Harr_r0 V c (ix2 j q) := by
  rw [Finset.sum_range]
  refine Eq.trans (Finset.sum_congr rfl fun b _ => ?_) (Cert.GraphSpec.sum_blocks 8 2048 _)
  unfold blockTerm_r0
  rw [dif_pos ⟨hI, b.isLt⟩]

def G_r0 (c : Dev nD) : Vec Ideal S16384x128 .f32 := fun idx =>
  epi_r0 (∑ j : Fin 16384, Aarr_r0 V c (ix2 (idx 0) j) * Harr_r0 V c (ix2 j (idx 1))) (barr_r0 V c (ix2 (0 : Fin 1) (idx 1)))

/-- The output block stored at the last step of row block `t / 8`: the finished accumulator (all eight runs) combined with the bias row. -/
theorem out_eq_r0 (c : Dev nD) (t : Fin cfg0.N) (h1 : t.val % 8 = 7) (hN : t.val < 8 * 8) (p : Fin 2048) (q : Fin 128) :
    outAt0 V c t (ix2 p q) = G_r0 V c (ix2 (⟨2048 * (t.val / 8) + p.val, by omega⟩ : Fin 16384) q) := by
  rw [outAt0_C V c t h1, ((pieces_r0 c (grid0.coords t) (ms0_0 t) (hs0_0 t) (ms0_1 t) (hs0_1 t) (ms0_2 t) (hs0_2 t) (ms0_3 t) (hs0_3 t) scM0_0 (Memref.isWhole_whole _) (ablk_r0 V c t) (hblk_r0 V c t) (bblk_r0 V c t) (accIn0 V c t)).2.1 _ _).2,
    pay3_apply_r0, bblk_apply_r0 V c t q, pay2_apply_r0, show accIn0 V c t (ix2 p q) = _ from acc_eq_r0 V c _ _ p q,
    step_sum_r0 V c t (t.val / 8) 7 rfl h1 (by omega) (by decide) p q,
    show (t.val - 1) / 8 = t.val / 8 by omega, show (t.val - 1) % 8 + 1 = 7 by omega,
    ← Finset.sum_range_succ (fun b => blockTerm_r0 V c (t.val / 8) b p q) 7, runs_sum_r0 V c (t.val / 8) (by omega) p q]
  rfl

theorem flushed_eq_r0 (c : Dev nD) (t : Fin cfg0.N) (hf : (cfg0.win 3).flush t = true) :
    (dat0 V c).flushed 3 t = ((cfg0.win 3).blk t).view.read (Elt Ideal) (G_r0 V c) := by
  have h1 : t.val % 8 = 7 := (flush0_3 t).mp hf
  have hN : t.val < 8 * 8 := lt_of_lt_of_eq t.isLt (show cfg0.N = 8 * 8 from N_0)
  funext y
  obtain ⟨p, q, rfl⟩ : ∃ (p : Fin 2048) (q : Fin 128), y = ix2 p q := ⟨y 0, y 1, eq_ix2 y⟩
  have ey : (cfg0.win 3).xinj (grid0.coords t) (ix2 p q) = ix2 p q := by
    funext a
    match a with
    | ⟨0, _⟩ => rfl
    | ⟨1, _⟩ => rfl
  have hE : (((cfg0.win 3).blk t).view.emb (ix2 p q) : S16384x128.Idx) = ix2 (⟨2048 * (t.val / 8) + p.val, by omega⟩ : Fin 16384) q := by
    funext a
    apply Fin.ext
    match a with
    | ⟨0, _⟩ =>
      refine (win0_3.rect_emb_val t _ ⟨0, Nat.zero_lt_two⟩).trans ?_
      show win0_3.index t 0 * 2048 + p.val = 2048 * (t.val / 8) + p.val
      rw [(widx3_r0 t).1]
      omega
    | ⟨1, _⟩ =>
      refine (win0_3.rect_emb_val t _ ⟨1, Nat.one_lt_two⟩).trans ?_
      show win0_3.index t 1 * 128 + q.val = q.val
      rw [(widx3_r0 t).2]
      omega
  show (dat0 V c).after 3 t ((cfg0.win 3).xinj (grid0.coords t) (ix2 p q)) = _
  rw [after0_3, ey, out_eq_r0 V c t h1 hN, View.read_apply]
  show _ = G_r0 V c (((cfg0.win 3).blk t).view.emb (ix2 p q))
  rw [hE]

/-- Row `i` lies in row block `i / 2048`, which is written back at that block's last step. -/
theorem cover_r0 (i : S16384x128.Idx) : ∃ t : Fin cfg0.N, (cfg0.win 3).flush t = true ∧ i ∈ ((cfg0.win 3).blk t).view.set := by
  have hi0 : (i 0 : ℕ) < 16384 := (i 0).isLt
  have hi1 : (i 1 : ℕ) < 128 := (i 1).isLt
  obtain ⟨t, ht⟩ : ∃ t : Fin cfg0.N, t.val = 8 * ((i 0 : ℕ) / 2048) + 7 :=
    ⟨⟨_, by rw [show cfg0.N = 8 * 8 from N_0]; omega⟩, rfl⟩
  refine ⟨t, (flush0_3 t).mpr (by omega), ?_⟩
  show i ∈ ((View.whole main_v41).slice (win0_3.rect t)).set
  rw [View.set_slice_whole, Rect.mem_set_unit]
  intro a
  match a with
  | ⟨0, _⟩ =>
    show win0_3.index t 0 * 2048 ≤ (i 0 : ℕ) ∧ (i 0 : ℕ) < win0_3.index t 0 * 2048 + 2048
    rw [(widx3_r0 t).1]; omega
  | ⟨1, _⟩ =>
    show win0_3.index t 1 * 128 ≤ (i 1 : ℕ) ∧ (i 1 : ℕ) < win0_3.index t 1 * 128 + 128
    rw [(widx3_r0 t).2]; omega

theorem final_r0 (c : Dev nD) : (dat0 V c).arrAt 3 cfg0.N = G_r0 V c :=
  (dat0 V c).arrAt_eq_of_cover 3 (G_r0 V c) (flushed_eq_r0 V c) cover_r0

theorem agg0_final (c : Dev nD) (i : Fin 16384) (k : Fin 128) :
    (dat0 (F := Ideal) V c).arrAt 3 cfg0.N (ix2 i k)
      = max ((∑ j : Fin 16384, Aarr_r0 V c (ix2 i j) * Harr_r0 V c (ix2 j k)) + barr_r0 V c (ix2 (0 : Fin 1) k)) 0 := by
  rw [final_r0]
  rfl

end Final

end Cert.KernelIdeal.HandV

end
-- ==== Proof.KI.Agg1Value.lean ====
import proofs.«406303_j13073880449913_1_alg».proof.Proof.KI.Agg1
import proofs.«406303_j13073880449913_1_alg».proof.Proof.GraphSpec
import Idealize.ShloMosaic.Lib.ValueLayout
import Idealize.ShloMosaic.PureOps.Ideal.Laws

noncomputable section

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem

section Pieces
variable {F : FTy → Type} [FloatOps F] (c : Dev nD) (i : grid1.Coords)
  (a2 : Memref sig .tc .vmem S2048x2048 .bf16) (h2 : a2.IsWhole) (a3 : Memref sig .tc .vmem S2048x64 .bf16) (h3 : a3.IsWhole)
  (a4 : Memref sig .tc .vmem S1x64 .f32) (h4 : a4.IsWhole) (a5 : Memref sig .tc .vmem S2048x64 .f32) (h5 : a5.IsWhole)
  (a6 : Memref sig .tc .vmem S2048x64 .f32) (h6 : a6.IsWhole)
  (x0 : Vec F S2048x2048 .bf16) (x1 : Vec F S2048x64 .bf16) (x2 : Vec F S1x64 .f32) (xs0 : Vec F S2048x64 .f32)

theorem hz_r1 : (![0, 0] : Fin 2 → Nat) = fun _ => 0 := funext fun a => by fin_cases a <;> rfl

/-- What one point leaves: off the reset points the accumulator plus one block product, at a row block's last point also the stored block, at a reset point the zero block plus one block product. -/
theorem pieces_r1 :
    (∀ (hc0 : ¬cond1_0 i) (hc1 : ¬cond1_1 i),
      rd1 (kernelRun1_B c i a2 h2 a3 h3 a4 h4 a5 h5 a6 h6 hc0 hc1 x0 x1 x2 xs0).2.1 = k1_pay2 xs0 x0 x1)
    ∧ (∀ (hc0 : ¬cond1_0 i) (hc1 : cond1_1 i),
      rd1 (kernelRun1_C c i a2 h2 a3 h3 a4 h4 a5 h5 a6 h6 hc0 hc1 x0 x1 x2 xs0).2.1 = k1_pay2 xs0 x0 x1
      ∧ rd1 (kernelRun1_C c i a2 h2 a3 h3 a4 h4 a5 h5 a6 h6 hc0 hc1 x0 x1 x2 xs0).1 = k1_pay3 (k1_pay2 xs0 x0 x1) x2)
    ∧ ∀ (hc0 : cond1_0 i) (hc1 : ¬cond1_1 i),
      rd1 (kernelRun1_A c i a2 h2 a3 h3 a4 h4 a5 h5 a6 h6 hc0 hc1 x0 x1 x2).2.1 = k1_pay2 (k1_pay1 (F := F)) x0 x1 := by
  refine ⟨fun hc0 hc1 => ?_, fun hc0 hc1 => ⟨?_, ?_⟩, fun hc0 hc1 => ?_⟩ <;>
  · unfold rd1
    rw [View.read_writes_eq_canon _ _ _ (View.cover_of_tiledL _ S2048x64.size (by sl_kernel_rfl))]
    first | unfold kernelRun1_A | unfold kernelRun1_B | unfold kernelRun1_C
    dsimp only
    sl_unfold_words
    first
      | rw [View.canon_cons_unit_zero (S := S2048x64) hz_r1, View.readCov_unit_zero (S := S2048x64) _ hz_r1]
      | rw [View.canon_unit_zero hz_r1]
    simp only [View.readAt_eq_ld, h2.read_unread, h3.read_unread, h4.read_unread, h6.read_unread, View.readCov_unit_zero (S := S2048x64) _ hz_r1,
      View.ld_unit_zero (S := S2048x64) hz_r1, View.ld_unit_zero (S := S2048x2048) hz_r1, View.ld_unit_zero (S := S1x64) hz_r1]

end Pieces

section IdealValues

abbrev D_r1 : DotDims S2048x2048 S2048x64 S2048x64 := dot_S2048x2048_S2048x64_S2048x64_1_0_0_1_n_n

def cE_r1 : D_r1.contr.Idx ≃ Fin 2048 := contrEquiv1 D_r1 2048 rfl rfl

theorem pay1_apply_r1 (y : S2048x64.Idx) : k1_pay1 (F := Ideal) y = 0 := by
  unfold k1_pay1
  simp only [shapeCast_self]
  exact Ideal.ofBits_zero_f32

theorem pay2_apply_r1 (acc : Vec Ideal S2048x64 .f32) (xa : Vec Ideal S2048x2048 .bf16) (xh : Vec Ideal S2048x64 .bf16)
    (p : Fin 2048) (q : Fin 64) :
    k1_pay2 acc xa xh (ix2 p q) = acc (ix2 p q) + ∑ j : Fin 2048, xa (ix2 p j) * xh (ix2 j q) := by
  unfold k1_pay2
  simp only [shapeCast_self]
  refine congrArg (acc (ix2 p q) + ·) ?_
  refine (Ideal.matmul_constant_zero_apply (φ₁ := .bf16) (φ₂ := .bf16) D_r1 none xa xh (ix2 p q)).trans ?_
  refine (Equiv.sum_comp cE_r1.symm _).symm.trans ?_
  refine Finset.sum_congr rfl fun j _ => ?_
  congr 2 <;> refine Shape.idx_ext₂ ?_ ?_ <;>
    simp [DotDims.lhsIdx, DotDims.rhsIdx, D_r1, dot_S2048x2048_S2048x64_S2048x64_1_0_0_1_n_n, cE_r1, contrEquiv1] <;> rfl

/-- How the finished accumulator and its column's bias entry combine into the output entry: the one thing in which the aggregation regions differ. -/
def epi_r1 (s b : EReal) : EReal := s + b

theorem pay3_apply_r1 (acc : Vec Ideal S2048x64 .f32) (bias : Vec Ideal S1x64 .f32) (p : Fin 2048) (q : Fin 64) :
    k1_pay3 acc bias (ix2 p q) = epi_r1 (acc (ix2 p q)) (bias (ix2 (0 : Fin 1) q)) := by
  unfold k1_pay3 epi_r1
  simp only [shapeCast_self]
  exact congrArg (acc (ix2 p q) + ·) (broadcastTo_1b_ab_apply bias _ p q)

end IdealValues

section Region
variable (V : (c : Dev nD) → (b : Ref sig .tc) → Buf (Elt Ideal) ((c : Thread nD τ).loc b))

abbrev Aarr_r1 (c : Dev nD) : Vec Ideal S16384x16384 .bf16 := V c main_v37
abbrev Harr_r1 (c : Dev nD) : Vec Ideal S16384x64 .bf16 := V c main_v43
abbrev barr_r1 (c : Dev nD) : Vec Ideal S1x64 .f32 := V c main_v44

abbrev ablk_r1 (c : Dev nD) (t : Fin cfg1.N) : Vec Ideal S2048x2048 .bf16 := iblk1 V c 0 t
abbrev hblk_r1 (c : Dev nD) (t : Fin cfg1.N) : Vec Ideal S2048x64 .bf16 := iblk1 V c 1 t
abbrev bblk_r1 (c : Dev nD) (t : Fin cfg1.N) : Vec Ideal S1x64 .f32 := iblk1 V c 2 t

theorem widx0_r1 : ∀ t : Fin cfg1.N, win1_0.index t 0 = t.val / 8 ∧ win1_0.index t 1 = t.val % 8 := by decide +kernel
theorem widx1_r1 : ∀ t : Fin cfg1.N, win1_1.index t 0 = t.val % 8 ∧ win1_1.index t 1 = 0 := by decide +kernel
theorem widx2_r1 : ∀ t : Fin cfg1.N, win1_2.index t 0 = 0 ∧ win1_2.index t 1 = 0 := by decide +kernel
theorem widx3_r1 : ∀ t : Fin cfg1.N, win1_3.index t 0 = t.val / 8 ∧ win1_3.index t 1 = 0 := by decide +kernel

theorem ablk_apply_r1 (c : Dev nD) (t : Fin cfg1.N) (I b : ℕ) (hI : t.val / 8 = I) (hb : t.val % 8 = b) (hI8 : I < 8) (hb8 : b < 8)
    (p j : Fin 2048) :
    ablk_r1 V c t (ix2 p j) = Aarr_r1 V c (ix2 (⟨2048 * I + p.val, by omega⟩ : Fin 16384) (⟨b * 2048 + j.val, by omega⟩ : Fin 16384)) := by
  unfold ablk_r1 iblk1
  rw [View.read_apply]
  refine congrArg (V c main_v37) (funext fun a => Fin.ext ?_)
  match a with
  | ⟨0, _⟩ => show win1_0.index t 0 * 2048 + 1 * p.val = 2048 * I + p.val; rw [(widx0_r1 t).1, hI]; omega
  | ⟨1, _⟩ => show win1_0.index t 1 * 2048 + 1 * j.val = b * 2048 + j.val; rw [(widx0_r1 t).2, hb]; omega

theorem hblk_apply_r1 (c : Dev nD) (t : Fin cfg1.N) (b : ℕ) (hb : t.val % 8 = b) (hb8 : b < 8) (j : Fin 2048) (q : Fin 64) :
    hblk_r1 V c t (ix2 j q) = Harr_r1 V c (ix2 (⟨b * 2048 + j.val, by omega⟩ : Fin 16384) q) := by
  unfold hblk_r1 iblk1
  rw [View.read_apply]
  refine congrArg (V c main_v43) (funext fun a => Fin.ext ?_)
  match a with
  | ⟨0, _⟩ => show win1_1.index t 0 * 2048 + 1 * j.val = b * 2048 + j.val; rw [(widx1_r1 t).1, hb]; omega
  | ⟨1, _⟩ => show win1_1.index t 1 * 64 + 1 * q.val = q.val; rw [(widx1_r1 t).2]; omega

theorem bblk_apply_r1 (c : Dev nD) (t : Fin cfg1.N) (q : Fin 64) :
    bblk_r1 V c t (ix2 (0 : Fin 1) q) = barr_r1 V c (ix2 (0 : Fin 1) q) := by
  unfold bblk_r1 iblk1
  rw [View.read_apply]
  refine congrArg (V c main_v44) (funext fun a => Fin.ext ?_)
  match a with
  | ⟨0, _⟩ => show win1_2.index t 0 * 1 + 1 * 0 = 0; rw [(widx2_r1 t).1]
  | ⟨1, _⟩ => show win1_2.index t 1 * 64 + 1 * q.val = q.val; rw [(widx2_r1 t).2]; omega

def blockTerm_r1 (c : Dev nD) (I b : ℕ) (p : Fin 2048) (q : Fin 64) : EReal :=
  if h : I < 8 ∧ b < 8 then
    ∑ j : Fin 2048, Aarr_r1 V c (ix2 (⟨2048 * I + p.val, by omega⟩ : Fin 16384) (⟨b * 2048 + j.val, by omega⟩ : Fin 16384))
      * Harr_r1 V c (ix2 (⟨b * 2048 + j.val, by omega⟩ : Fin 16384) q)
  else 0

theorem step_sum_r1 (c : Dev nD) (t : Fin cfg1.N) (I b : ℕ) (hI : t.val / 8 = I) (hb : t.val % 8 = b) (hI8 : I < 8) (hb8 : b < 8)
    (p : Fin 2048) (q : Fin 64) :
    ∑ j : Fin 2048, ablk_r1 V c t (ix2 p j) * hblk_r1 V c t (ix2 j q) = blockTerm_r1 V c I b p q := by
  unfold blockTerm_r1
  rw [dif_pos ⟨hI8, hb8⟩]
  exact Finset.sum_congr rfl fun j _ => by rw [ablk_apply_r1 V c t I b hI hb hI8 hb8 p j, hblk_apply_r1 V c t b hb hb8 j q]

/-- One point's step at row `p`, column `q`: a reset point starts from zero, any other from what it finds, and adds its run's term. -/
theorem acc_step_r1 (c : Dev nD) (t : Fin cfg1.N) (p : Fin 2048) (q : Fin 64) :
    accAt1 V c t.val t.isLt (ix2 p q)
      = (if t.val % 8 = 0 then 0 else accIn1 V c t (ix2 p q)) + blockTerm_r1 V c (t.val / 8) (t.val % 8) p q := by
  have hN : t.val < 8 * 8 := lt_of_lt_of_eq t.isLt (show cfg1.N = 8 * 8 from N_1)
  have hs := step_sum_r1 V c t _ _ rfl rfl (by omega) (by omega) p q
  have hp := pieces_r1 c (grid1.coords t) (ms1_0 t) (hs1_0 t) (ms1_1 t) (hs1_1 t) (ms1_2 t) (hs1_2 t) (ms1_3 t) (hs1_3 t) scM1_0 (Memref.isWhole_whole _) (ablk_r1 V c t) (hblk_r1 V c t) (bblk_r1 V c t) (accIn1 V c t)
  by_cases h0 : t.val % 8 = 0
  · rw [accAt1_A V c t h0, if_pos h0, hp.2.2 _ _, pay2_apply_r1, pay1_apply_r1, hs]
  · rw [if_neg h0]
    by_cases h1 : t.val % 8 = 7
    · rw [accAt1_C V c t h1, (hp.2.1 _ _).1, pay2_apply_r1, hs]
    · rw [accAt1_B V c t h0 h1, hp.1 _ _, pay2_apply_r1, hs]

/-- The accumulator after point `n` holds the sum of the runs `0 … n % 8` of its row block. -/
theorem acc_eq_r1 (c : Dev nD) (n : ℕ) (hn : n < cfg1.N) (p : Fin 2048) (q : Fin 64) :
    accAt1 V c n hn (ix2 p q) = ∑ b ∈ Finset.range (n % 8 + 1), blockTerm_r1 V c (n / 8) b p q := by
  induction n with
  | zero => exact (acc_step_r1 V c ⟨0, hn⟩ p q).trans (by simp)
  | succ n ih =>
    refine (acc_step_r1 V c ⟨n + 1, hn⟩ p q).trans ?_
    by_cases h0 : (n + 1) % 8 = 0
    · rw [if_pos h0, h0]; simp
    · rw [if_neg h0, show accIn1 V c ⟨n + 1, hn⟩ = accAt1 V c n (Nat.lt_of_succ_lt hn) from rfl, ih,
        show n / 8 = (n + 1) / 8 by omega, show (n + 1) % 8 = n % 8 + 1 by omega, Finset.sum_range_succ _ (n % 8 + 1)]

end Region

section Final
variable (V : (c : Dev nD) → (b : Ref sig .tc) → Buf (Elt Ideal) ((c : Thread nD τ).loc b))

theorem runs_sum_r1 (c : Dev nD) (I : ℕ) (hI : I < 8) (p : Fin 2048) (q : Fin 64) :
    ∑ b ∈ Finset.range 8, blockTerm_r1 V c I b p q
      = ∑ j : Fin 16384, Aarr_r1 V c (ix2 (⟨2048 * I + p.val, by omega⟩ : Fin 16384) j) * Harr_r1 V c (ix2 j q) := by
  rw [Finset.sum_range]
  refine Eq.trans (Finset.sum_congr rfl fun b _ => ?_) (Cert.GraphSpec.sum_blocks 8 2048 _)
  unfold blockTerm_r1
  rw [dif_pos ⟨hI, b.isLt⟩]

def G_r1 (c : Dev nD) : Vec Ideal S16384x64 .f32 := fun idx =>
  epi_r1 (∑ j : Fin 16384, Aarr_r1 V c (ix2 (idx 0) j) * Harr_r1 V c (ix2 j (idx 1))) (barr_r1 V c (ix2 (0 : Fin 1) (idx 1)))

/-- The output block stored at the last step of row block `t / 8`: the finished accumulator (all eight runs) combined with the bias row. -/
theorem out_eq_r1 (c : Dev nD) (t : Fin cfg1.N) (h1 : t.val % 8 = 7) (hN : t.val < 8 * 8) (p : Fin 2048) (q : Fin 64) :
    outAt1 V c t (ix2 p q) = G_r1 V c (ix2 (⟨2048 * (t.val / 8) + p.val, by omega⟩ : Fin 16384) q) := by
  rw [outAt1_C V c t h1, ((pieces_r1 c (grid1.coords t) (ms1_0 t) (hs1_0 t) (ms1_1 t) (hs1_1 t) (ms1_2 t) (hs1_2 t) (ms1_3 t) (hs1_3 t) scM1_0 (Memref.isWhole_whole _) (ablk_r1 V c t) (hblk_r1 V c t) (bblk_r1 V c t) (accIn1 V c t)).2.1 _ _).2,
    pay3_apply_r1, bblk_apply_r1 V c t q, pay2_apply_r1, show accIn1 V c t (ix2 p q) = _ from acc_eq_r1 V c _ _ p q,
    step_sum_r1 V c t (t.val / 8) 7 rfl h1 (by omega) (by decide) p q,
    show (t.val - 1) / 8 = t.val / 8 by omega, show (t.val - 1) % 8 + 1 = 7 by omega,
    ← Finset.sum_range_succ (fun b => blockTerm_r1 V c (t.val / 8) b p q) 7, runs_sum_r1 V c (t.val / 8) (by omega) p q]
  rfl

theorem flushed_eq_r1 (c : Dev nD) (t : Fin cfg1.N) (hf : (cfg1.win 3).flush t = true) :
    (dat1 V c).flushed 3 t = ((cfg1.win 3).blk t).view.read (Elt Ideal) (G_r1 V c) := by
  have h1 : t.val % 8 = 7 := (flush1_3 t).mp hf
  have hN : t.val < 8 * 8 := lt_of_lt_of_eq t.isLt (show cfg1.N = 8 * 8 from N_1)
  funext y
  obtain ⟨p, q, rfl⟩ : ∃ (p : Fin 2048) (q : Fin 64), y = ix2 p q := ⟨y 0, y 1, eq_ix2 y⟩
  have ey : (cfg1.win 3).xinj (grid1.coords t) (ix2 p q) = ix2 p q := by
    funext a
    match a with
    | ⟨0, _⟩ => rfl
    | ⟨1, _⟩ => rfl
  have hE : (((cfg1.win 3).blk t).view.emb (ix2 p q) : S16384x64.Idx) = ix2 (⟨2048 * (t.val / 8) + p.val, by omega⟩ : Fin 16384) q := by
    funext a
    apply Fin.ext
    match a with
    | ⟨0, _⟩ =>
      refine (win1_3.rect_emb_val t _ ⟨0, Nat.zero_lt_two⟩).trans ?_
      show win1_3.index t 0 * 2048 + p.val = 2048 * (t.val / 8) + p.val
      rw [(widx3_r1 t).1]
      omega
    | ⟨1, _⟩ =>
      refine (win1_3.rect_emb_val t _ ⟨1, Nat.one_lt_two⟩).trans ?_
      show win1_3.index t 1 * 64 + q.val = q.val
      rw [(widx3_r1 t).2]
      omega
  show (dat1 V c).after 3 t ((cfg1.win 3).xinj (grid1.coords t) (ix2 p q)) = _
  rw [after1_3, ey, out_eq_r1 V c t h1 hN, View.read_apply]
  show _ = G_r1 V c (((cfg1.win 3).blk t).view.emb (ix2 p q))
  rw [hE]

/-- Row `i` lies in row block `i / 2048`, which is written back at that block's last step. -/
theorem cover_r1 (i : S16384x64.Idx) : ∃ t : Fin cfg1.N, (cfg1.win 3).flush t = true ∧ i ∈ ((cfg1.win 3).blk t).view.set := by
  have hi0 : (i 0 : ℕ) < 16384 := (i 0).isLt
  have hi1 : (i 1 : ℕ) < 64 := (i 1).isLt
  obtain ⟨t, ht⟩ : ∃ t : Fin cfg1.N, t.val = 8 * ((i 0 : ℕ) / 2048) + 7 :=
    ⟨⟨_, by rw [show cfg1.N = 8 * 8 from N_1]; omega⟩, rfl⟩
  refine ⟨t, (flush1_3 t).mpr (by omega), ?_⟩
  show i ∈ ((View.whole main_v45).slice (win1_3.rect t)).set
  rw [View.set_slice_whole, Rect.mem_set_unit]
  intro a
  match a with
  | ⟨0, _⟩ =>
    show win1_3.index t 0 * 2048 ≤ (i 0 : ℕ) ∧ (i 0 : ℕ) < win1_3.index t 0 * 2048 + 2048
    rw [(widx3_r1 t).1]; omega
  | ⟨1, _⟩ =>
    show win1_3.index t 1 * 64 ≤ (i 1 : ℕ) ∧ (i 1 : ℕ) < win1_3.index t 1 * 64 + 64
    rw [(widx3_r1 t).2]; omega

theorem final_r1 (c : Dev nD) : (dat1 V c).arrAt 3 cfg1.N = G_r1 V c :=
  (dat1 V c).arrAt_eq_of_cover 3 (G_r1 V c) (flushed_eq_r1 V c) cover_r1

theorem agg1_final (c : Dev nD) (i : Fin 16384) (k : Fin 64) :
    (dat1 (F := Ideal) V c).arrAt 3 cfg1.N (ix2 i k)
      = (∑ j : Fin 16384, Aarr_r1 V c (ix2 i j) * Harr_r1 V c (ix2 j k)) + barr_r1 V c (ix2 (0 : Fin 1) k) := by
  rw [final_r1]
  rfl

end Final

end Cert.KernelIdeal.HandV

end
-- ==== Proof.KI.Agg2Value.lean ====
import proofs.«406303_j13073880449913_1_alg».proof.Proof.KI.Agg2
import proofs.«406303_j13073880449913_1_alg».proof.Proof.GraphSpec
import Idealize.ShloMosaic.Lib.ValueLayout
import Idealize.ShloMosaic.PureOps.Ideal.Laws

noncomputable section

namespace Cert.KernelIdeal.HandV

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.Sem

section Pieces
variable {F : FTy → Type} [FloatOps F] (c : Dev nD) (i : grid2.Coords)
  (a2 : Memref sig .tc .vmem S2048x2048 .bf16) (h2 : a2.IsWhole) (a3 : Memref sig .tc .vmem S2048x64 .bf16) (h3 : a3.IsWhole)
  (a4 : Memref sig .tc .vmem S1x64 .f32) (h4 : a4.IsWhole) (a5 : Memref sig .tc .vmem S2048x64 .f32) (h5 : a5.IsWhole)
  (a6 : Memref sig .tc .vmem S2048x64 .f32) (h6 : a6.IsWhole)
  (x0 : Vec F S2048x2048 .bf16) (x1 : Vec F S2048x64 .bf16) (x2 : Vec F S1x64 .f32) (xs0 : Vec F S2048x64 .f32)

theorem hz_r2 : (![0, 0] : Fin 2 → Nat) = fun _ => 0 := funext fun a => by fin_cases a <;> rfl

/-- What one point leaves: off the reset points the accumulator plus one block product, at a row block's last point also the stored block, at a reset point the zero block plus one block product. -/
theorem pieces_r2 :
    (∀ (hc0 : ¬cond2_0 i) (hc1 : ¬cond2_1 i),
      rd2 (kernelRun2_B c i a2 h2 a3 h3 a4 h4 a5 h5 a6 h6 hc0 hc1 x0 x1 x2 xs0).2.1 = k2_pay2 xs0 x0 x1)
    ∧ (∀ (hc0 : ¬cond2_0 i) (hc1 : cond2_1 i),
      rd2 (kernelRun2_C c i a2 h2 a3 h3 a4 h4 a5 h5 a6 h6 hc0 hc1 x0 x1 x2 xs0).2.1 = k2_pay2 xs0 x0 x1
      ∧ rd2 (kernelRun2_C c i a2 h2 a3 h3 a4 h4 a5 h5 a6 h6 hc0 hc1 x0 x1 x2 xs0).1 = k2_pay3 (k2_pay2 xs0 x0 x1) x2)
    ∧ ∀ (hc0 : cond2_0 i) (hc1 : ¬cond2_1 i),
      rd2 (kernelRun2_A c i a2 h2 a3 h3 a4 h4 a5 h5 a6 h6 hc0 hc1 x0 x1 x2).2.1 = k2_pay2 (k2_pay1 (F := F)) x0 x1 := by
  refine ⟨fun hc0 hc1 => ?_, fun hc0 hc1 => ⟨?_, ?_⟩, fun hc0 hc1 => ?_⟩ <;>
  · unfold rd2
    rw [View.read_writes_eq_canon _ _ _ (View.cover_of_tiledL _ S2048x64.size (by sl_kernel_rfl))]
    first | unfold kernelRun2_A | unfold kernelRun2_B | unfold kernelRun2_C
    dsimp only
    sl_unfold_words
    first
      | rw [View.canon_cons_unit_zero (S := S2048x64) hz_r2, View.readCov_unit_zero (S := S2048x64) _ hz_r2]
      | rw [View.canon_unit_zero hz_r2]
    simp only [View.readAt_eq_ld, h2.read_unread, h3.read_unread, h4.read_unread, h6.read_unread, View.readCov_unit_zero (S := S2048x64) _ hz_r2,
      View.ld_unit_zero (S := S2048x64) hz_r2, View.ld_unit_zero (S := S2048x2048) hz_r2, View.ld_unit_zero (S := S1x64) hz_r2]

end Pieces

section IdealValues

abbrev D_r2 : DotDims S2048x2048 S2048x64 S2048x64 := dot_S2048x2048_S2048x64_S2048x64_1_0_0_1_n_n

def cE_r2 : D_r2.contr.Idx ≃ Fin 2048 := contrEquiv1 D_r2 2048 rfl rfl

theorem pay1_apply_r2 (y : S2048x64.Idx) : k2_pay1 (F := Ideal) y = 0 := by
  unfold k2_pay1
  simp only [shapeCast_self]
  exact Ideal.ofBits_zero_f32

theorem pay2_apply_r2 (acc : Vec Ideal S2048x64 .f32) (xa : Vec Ideal S2048x2048 .bf16) (xh : Vec Ideal S2048x64 .bf16)
    (p : Fin 2048) (q : Fin 64) :
    k2_pay2 acc xa xh (ix2 p q) = acc (ix2 p q) + ∑ j : Fin 2048, xa (ix2 p j) * xh (ix2 j q) := by
  unfold k2_pay2
  simp only [shapeCast_self]
  refine congrArg (acc (ix2 p q) + ·) ?_
  refine (Ideal.matmul_constant_zero_apply (φ₁ := .bf16) (φ₂ := .bf16) D_r2 none xa xh (ix2 p q)).trans ?_
  refine (Equiv.sum_comp cE_r2.symm _).symm.trans ?_
  refine Finset.sum_congr rfl fun j _ => ?_
  congr 2 <;> refine Shape.idx_ext₂ ?_ ?_ <;>
    simp [DotDims.lhsIdx, DotDims.rhsIdx, D_r2, dot_S2048x2048_S2048x64_S2048x64_1_0_0_1_n_n, cE_r2, contrEquiv1] <;> rfl

/-- How the finished accumulator and its column's bias entry combine into the output entry: the one thing in which the aggregation regions differ. -/
def epi_r2 (s b : EReal) : EReal := s + b

theorem pay3_apply_r2 (acc : Vec Ideal S2048x64 .f32) (bias : Vec Ideal S1x64 .f32) (p : Fin 2048) (q : Fin 64) :
    k2_pay3 acc bias (ix2 p q) = epi_r2 (acc (ix2 p q)) (bias (ix2 (0 : Fin 1) q)) := by
  unfold k2_pay3 epi_r2
  simp only [shapeCast_self]
  exact congrArg (acc (ix2 p q) + ·) (broadcastTo_1b_ab_apply bias _ p q)

end IdealValues

section Region
variable (V : (c : Dev nD) → (b : Ref sig .tc) → Buf (Elt Ideal) ((c : Thread nD τ).loc b))

abbrev Aarr_r2 (c : Dev nD) : Vec Ideal S16384x16384 .bf16 := V c main_v37
abbrev Harr_r2 (c : Dev nD) : Vec Ideal S16384x64 .bf16 := V c main_v47
abbrev barr_r2 (c : Dev nD) : Vec Ideal S1x64 .f32 := V c main_v48

abbrev ablk_r2 (c : Dev nD) (t : Fin cfg2.N) : Vec Ideal S2048x2048 .bf16 := iblk2 V c 0 t
abbrev hblk_r2 (c : Dev nD) (t : Fin cfg2.N) : Vec Ideal S2048x64 .bf16 := iblk2 V c 1 t
abbrev bblk_r2 (c : Dev nD) (t : Fin cfg2.N) : Vec Ideal S1x64 .f32 := iblk2 V c 2 t

theorem widx0_r2 : ∀ t : Fin cfg2.N, win2_0.index t 0 = t.val / 8 ∧ win2_0.index t 1 = t.val % 8 := by decide +kernel
theorem widx1_r2 : ∀ t : Fin cfg2.N, win2_1.index t 0 = t.val % 8 ∧ win2_1.index t 1 = 0 := by decide +kernel
theorem widx2_r2 : ∀ t : Fin cfg2.N, win2_2.index t 0 = 0 ∧ win2_2.index t 1 = 0 := by decide +kernel
theorem widx3_r2 : ∀ t : Fin cfg2.N, win2_3.index t 0 = t.val / 8 ∧ win2_3.index t 1 = 0 := by decide +kernel

theorem ablk_apply_r2 (c : Dev nD) (t : Fin cfg2.N) (I b : ℕ) (hI : t.val / 8 = I) (hb : t.val % 8 = b) (hI8 : I < 8) (hb8 : b < 8)
    (p j : Fin 2048) :
    ablk_r2 V c t (ix2 p j) = Aarr_r2 V c (ix2 (⟨2048 * I + p.val, by omega⟩ : Fin 16384) (⟨b * 2048 + j.val, by omega⟩ : Fin 16384)) := by
  unfold ablk_r2 iblk2
  rw [View.read_apply]
  refine congrArg (V c main_v37) (funext fun a => Fin.ext ?_)
  match a with
  | ⟨0, _⟩ => show win2_0.index t 0 * 2048 + 1 * p.val = 2048 * I + p.val; rw [(widx0_r2 t).1, hI]; omega
  | ⟨1, _⟩ => show win2_0.index t 1 * 2048 + 1 * j.val = b * 2048 + j.val; rw [(widx0_r2 t).2, hb]; omega

theorem hblk_apply_r2 (c : Dev nD) (t : Fin cfg2.N) (b : ℕ) (hb : t.val % 8 = b) (hb8 : b < 8) (j : Fin 2048) (q : Fin 64) :
    hblk_r2 V c t (ix2 j q) = Harr_r2 V c (ix2 (⟨b * 2048 + j.val, by omega⟩ : Fin 16384) q) := by
  unfold hblk_r2 iblk2
  rw [View.read_apply]
  refine congrArg (V c main_v47) (funext fun a => Fin.ext ?_)
  match a with
  | ⟨0, _⟩ => show win2_1.index t 0 * 2048 + 1 * j.val = b * 2048 + j.val; rw [(widx1_r2 t).1, hb]; omega
  | ⟨1, _⟩ => show win2_1.index t 1 * 64 + 1 * q.val = q.val; rw [(widx1_r2 t).2]; omega

theorem bblk_apply_r2 (c : Dev nD) (t : Fin cfg2.N) (q : Fin 64) :
    bblk_r2 V c t (ix2 (0 : Fin 1) q) = barr_r2 V c (ix2 (0 : Fin 1) q) := by
  unfold bblk_r2 iblk2
  rw [View.read_apply]
  refine congrArg (V c main_v48) (funext fun a => Fin.ext ?_)
  match a with
  | ⟨0, _⟩ => show win2_2.index t 0 * 1 + 1 * 0 = 0; rw [(widx2_r2 t).1]
  | ⟨1, _⟩ => show win2_2.index t 1 * 64 + 1 * q.val = q.val; rw [(widx2_r2 t).2]; omega

def blockTerm_r2 (c : Dev nD) (I b : ℕ) (p : Fin 2048) (q : Fin 64) : EReal :=
  if h : I < 8 ∧ b < 8 then
    ∑ j : Fin 2048, Aarr_r2 V c (ix2 (⟨2048 * I + p.val, by omega⟩ : Fin 16384) (⟨b * 2048 + j.val, by omega⟩ : Fin 16384))
      * Harr_r2 V c (ix2 (⟨b * 2048 + j.val, by omega⟩ : Fin 16384) q)
  else 0

theorem step_sum_r2 (c : Dev nD) (t : Fin cfg2.N) (I b : ℕ) (hI : t.val / 8 = I) (hb : t.val % 8 = b) (hI8 : I < 8) (hb8 : b < 8)
    (p : Fin 2048) (q : Fin 64) :
    ∑ j : Fin 2048, ablk_r2 V c t (ix2 p j) * hblk_r2 V c t (ix2 j q) = blockTerm_r2 V c I b p q := by
  unfold blockTerm_r2
  rw [dif_pos ⟨hI8, hb8⟩]
  exact Finset.sum_congr rfl fun j _ => by rw [ablk_apply_r2 V c t I b hI hb hI8 hb8 p j, hblk_apply_r2 V c t b hb hb8 j q]

/-- One point's step at row `p`, column `q`: a reset point starts from zero, any other from what it finds, and adds its run's term. -/
theorem acc_step_r2 (c : Dev nD) (t : Fin cfg2.N) (p : Fin 2048) (q : Fin 64) :
    accAt2 V c t.val t.isLt (ix2 p q)
      = (if t.val % 8 = 0 then 0 else accIn2 V c t (ix2 p q)) + blockTerm_r2 V c (t.val / 8) (t.val % 8) p q := by
  have hN : t.val < 8 * 8 := lt_of_lt_of_eq t.isLt (show cfg2.N = 8 * 8 from N_2)
  have hs := step_sum_r2 V c t _ _ rfl rfl (by omega) (by omega) p q
  have hp := pieces_r2 c (grid2.coords t) (ms2_0 t) (hs2_0 t) (ms2_1 t) (hs2_1 t) (ms2_2 t) (hs2_2 t) (ms2_3 t) (hs2_3 t) scM2_0 (Memref.isWhole_whole _) (ablk_r2 V c t) (hblk_r2 V c t) (bblk_r2 V c t) (accIn2 V c t)
  by_cases h0 : t.val % 8 = 0
  · rw [accAt2_A V c t h0, if_pos h0, hp.2.2 _ _, pay2_apply_r2, pay1_apply_r2, hs]
  · rw [if_neg h0]
    by_cases h1 : t.val % 8 = 7
    · rw [accAt2_C V c t h1, (hp.2.1 _ _).1, pay2_apply_r2, hs]
    · rw [accAt2_B V c t h0 h1, hp.1 _ _, pay2_apply_r2, hs]

/-- The accumulator after point `n` holds the sum of the runs `0 … n % 8` of its row block. -/
theorem acc_eq_r2 (c : Dev nD) (n : ℕ) (hn : n < cfg2.N) (p : Fin 2048) (q : Fin 64) :
    accAt2 V c n hn (ix2 p q) = ∑ b ∈ Finset.range (n % 8 + 1), blockTerm_r2 V c (n / 8) b p q := by
  induction n with
  | zero => exact (acc_step_r2 V c ⟨0, hn⟩ p q).trans (by simp)
  | succ n ih =>
    refine (acc_step_r2 V c ⟨n + 1, hn⟩ p q).trans ?_
    by_cases h0 : (n + 1) % 8 = 0
    · rw [if_pos h0, h0]; simp
    · rw [if_neg h0, show accIn2 V c ⟨n + 1, hn⟩ = accAt2 V c n (Nat.lt_of_succ_lt hn) from rfl, ih,
        show n / 8 = (n + 1) / 8 by omega, show (n + 1) % 8 = n % 8 + 1 by omega, Finset.sum_range_succ _ (n % 8 + 1)]

end Region

section Final
variable (V : (c : Dev nD) → (b : Ref sig .tc) → Buf (Elt Ideal) ((c : Thread nD τ).loc b))

theorem runs_sum_r2 (c : Dev nD) (I : ℕ) (hI : I < 8) (p : Fin 2048) (q : Fin 64) :
    ∑ b ∈ Finset.range 8, blockTerm_r2 V c I b p q
      = ∑ j : Fin 16384, Aarr_r2 V c (ix2 (⟨2048 * I + p.val, by omega⟩ : Fin 16384) j) * Harr_r2 V c (ix2 j q) := by
  rw [Finset.sum_range]
  refine Eq.trans (Finset.sum_congr rfl fun b _ => ?_) (Cert.GraphSpec.sum_blocks 8 2048 _)
  unfold blockTerm_r2
  rw [dif_pos ⟨hI, b.isLt⟩]

def G_r2 (c : Dev nD) : Vec Ideal S16384x64 .f32 := fun idx =>
  epi_r2 (∑ j : Fin 16384, Aarr_r2 V c (ix2 (idx 0) j) * Harr_r2 V c (ix2 j (idx 1))) (barr_r2 V c (ix2 (0 : Fin 1) (idx 1)))

/-- The output block stored at the last step of row block `t / 8`: the finished accumulator (all eight runs) combined with the bias row. -/
theorem out_eq_r2 (c : Dev nD) (t : Fin cfg2.N) (h1 : t.val % 8 = 7) (hN : t.val < 8 * 8) (p : Fin 2048) (q : Fin 64) :
    outAt2 V c t (ix2 p q) = G_r2 V c (ix2 (⟨2048 * (t.val / 8) + p.val, by omega⟩ : Fin 16384) q) := by
  rw [outAt2_C V c t h1, ((pieces_r2 c (grid2.coords t) (ms2_0 t) (hs2_0 t) (ms2_1 t) (hs2_1 t) (ms2_2 t) (hs2_2 t) (ms2_3 t) (hs2_3 t) scM2_0 (Memref.isWhole_whole _) (ablk_r2 V c t) (hblk_r2 V c t) (bblk_r2 V c t) (accIn2 V c t)).2.1 _ _).2,
    pay3_apply_r2, bblk_apply_r2 V c t q, pay2_apply_r2, show accIn2 V c t (ix2 p q) = _ from acc_eq_r2 V c _ _ p q,
    step_sum_r2 V c t (t.val / 8) 7 rfl h1 (by omega) (by decide) p q,
    show (t.val - 1) / 8 = t.val / 8 by omega, show (t.val - 1) % 8 + 1 = 7 by omega,
    ← Finset.sum_range_succ (fun b => blockTerm_r2 V c (t.val / 8) b p q) 7, runs_sum_r2 V c (t.val / 8) (by omega) p q]
  rfl

theorem flushed_eq_r2 (c : Dev nD) (t : Fin cfg2.N) (hf : (cfg2.win 3).flush t = true) :
    (dat2 V c).flushed 3 t = ((cfg2.win 3).blk t).view.read (Elt Ideal) (G_r2 V c) := by
  have h1 : t.val % 8 = 7 := (flush2_3 t).mp hf
  have hN : t.val < 8 * 8 := lt_of_lt_of_eq t.isLt (show cfg2.N = 8 * 8 from N_2)
  funext y
  obtain ⟨p, q, rfl⟩ : ∃ (p : Fin 2048) (q : Fin 64), y = ix2 p q := ⟨y 0, y 1, eq_ix2 y⟩
  have ey : (cfg2.win 3).xinj (grid2.coords t) (ix2 p q) = ix2 p q := by
    funext a
    match a with
    | ⟨0, _⟩ => rfl
    | ⟨1, _⟩ => rfl
  have hE : (((cfg2.win 3).blk t).view.emb (ix2 p q) : S16384x64.Idx) = ix2 (⟨2048 * (t.val / 8) + p.val, by omega⟩ : Fin 16384) q := by
    funext a
    apply Fin.ext
    match a with
    | ⟨0, _⟩ =>
      refine (win2_3.rect_emb_val t _ ⟨0, Nat.zero_lt_two⟩).trans ?_
      show win2_3.index t 0 * 2048 + p.val = 2048 * (t.val / 8) + p.val
      rw [(widx3_r2 t).1]
      omega
    | ⟨1, _⟩ =>
      refine (win2_3.rect_emb_val t _ ⟨1, Nat.one_lt_two⟩).trans ?_
      show win2_3.index t 1 * 64 + q.val = q.val
      rw [(widx3_r2 t).2]
      omega
  show (dat2 V c).after 3 t ((cfg2.win 3).xinj (grid2.coords t) (ix2 p q)) = _
  rw [after2_3, ey, out_eq_r2 V c t h1 hN, View.read_apply]
  show _ = G_r2 V c (((cfg2.win 3).blk t).view.emb (ix2 p q))
  rw [hE]

/-- Row `i` lies in row block `i / 2048`, which is written back at that block's last step. -/
theorem cover_r2 (i : S16384x64.Idx) : ∃ t : Fin cfg2.N, (cfg2.win 3).flush t = true ∧ i ∈ ((cfg2.win 3).blk t).view.set := by
  have hi0 : (i 0 : ℕ) < 16384 := (i 0).isLt
  have hi1 : (i 1 : ℕ) < 64 := (i 1).isLt
  obtain ⟨t, ht⟩ : ∃ t : Fin cfg2.N, t.val = 8 * ((i 0 : ℕ) / 2048) + 7 :=
    ⟨⟨_, by rw [show cfg2.N = 8 * 8 from N_2]; omega⟩, rfl⟩
  refine ⟨t, (flush2_3 t).mpr (by omega), ?_⟩
  show i ∈ ((View.whole main_v49).slice (win2_3.rect t)).set
  rw [View.set_slice_whole, Rect.mem_set_unit]
  intro a
  match a with
  | ⟨0, _⟩ =>
    show win2_3.index t 0 * 2048 ≤ (i 0 : ℕ) ∧ (i 0 : ℕ) < win2_3.index t 0 * 2048 + 2048
    rw [(widx3_r2 t).1]; omega
  | ⟨1, _⟩ =>
    show win2_3.index t 1 * 64 ≤ (i 1 : ℕ) ∧ (i 1 : ℕ) < win2_3.index t 1 * 64 + 64
    rw [(widx3_r2 t).2]; omega

theorem final_r2 (c : Dev nD) : (dat2 V c).arrAt 3 cfg2.N = G_r2 V c :=
  (dat2 V c).arrAt_eq_of_cover 3 (G_r2 V c) (flushed_eq_r2 V c) cover_r2

theorem agg2_final (c : Dev nD) (i : Fin 16384) (k : Fin 64) :
    (dat2 (F := Ideal) V c).arrAt 3 cfg2.N (ix2 i k)
      = (∑ j : Fin 16384, Aarr_r2 V c (ix2 i j) * Harr_r2 V c (ix2 j k)) + barr_r2 V c (ix2 (0 : Fin 1) k) := by
  rw [final_r2]
  rfl

end Final

end Cert.KernelIdeal.HandV

end
-- ==== Proof.KI.Dec3Value.lean ====
import proofs.«406303_j13073880449913_1_alg».proof.Proof.KI.Dec3
import Idealize.ShloMosaic.Lib.ValueIdx
import Idealize.ShloMosaic.Lib.Pipeline.Value
import Idealize.ShloMosaic.PureOps.Ideal.Laws

noncomputable section

open scoped BigOperators

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

theorem lhs_dec_0 (i : S2048x1024.Idx) (q : dot_S2048x64_S1024x64_S2048x1024_1_1_0_0_n_n.contr.Idx) : (dot_S2048x64_S1024x64_S2048x1024_1_1_0_0_n_n.lhsIdx i q 0).val = (i 0).val := by
  unfold DotDims.lhsIdx
  rw [dif_neg (by decide), dif_pos (by decide)]
  rfl
theorem lhs_dec_1 (i : S2048x1024.Idx) (q : dot_S2048x64_S1024x64_S2048x1024_1_1_0_0_n_n.contr.Idx) : (dot_S2048x64_S1024x64_S2048x1024_1_1_0_0_n_n.lhsIdx i q 1).val = (q ⟨0, by decide⟩).val :=
  dot_S2048x64_S1024x64_S2048x1024_1_1_0_0_n_n.lhsIdx_val_of_single rfl i q
theorem rhs_dec_0 (i : S2048x1024.Idx) (q : dot_S2048x64_S1024x64_S2048x1024_1_1_0_0_n_n.contr.Idx) : (dot_S2048x64_S1024x64_S2048x1024_1_1_0_0_n_n.rhsIdx i q 0).val = (i 1).val := by
  unfold DotDims.rhsIdx
  rw [dif_neg (by decide), dif_pos (by decide)]
  rfl
theorem rhs_dec_1 (i : S2048x1024.Idx) (q : dot_S2048x64_S1024x64_S2048x1024_1_1_0_0_n_n.contr.Idx) : (dot_S2048x64_S1024x64_S2048x1024_1_1_0_0_n_n.rhsIdx i q 1).val = (q ⟨0, by decide⟩).val :=
  dot_S2048x64_S1024x64_S2048x1024_1_1_0_0_n_n.rhsIdx_val_of_single rfl i q

-- The stored payload at (p, q): both operands are contracted along their axis 1, so it is the logistic of the inner product of rows p and q.
theorem pay_dec_apply (x0 : Vec Ideal S2048x64 .bf16) (x1 : Vec Ideal S1024x64 .bf16) (p : Fin 2048) (q : Fin 1024) :
    k3_pay1 (F := Ideal) x0 x1 (ix2 p q) = Ideal.logistic (∑ k : Fin 64, x0 (ix2 p k) * x1 (ix2 q k)) := by
  unfold k3_pay1
  rw [shapeCast_self, shapeCast_self]
  show Ideal.logistic (FloatOps.matmul dot_S2048x64_S1024x64_S2048x1024_1_1_0_0_n_n none x0 x1 (constant (F := Ideal) S2048x1024 .f32 0x00000000#32) (ix2 p q)) = _
  rw [Ideal.matmul_constant_zero_apply, ← Equiv.sum_comp (contrEquiv1 dot_S2048x64_S1024x64_S2048x1024_1_1_0_0_n_n 64 rfl rfl).symm]
  have hk := contrEquiv1_symm_val dot_S2048x64_S1024x64_S2048x1024_1_1_0_0_n_n 64 rfl rfl
  refine congrArg _ (Finset.sum_congr rfl fun k _ => congrArg₂ (fun a b => x0 a * x1 b) (funext fun a => Fin.ext ?_) (funext fun a => Fin.ext ?_))
  · match a with
    | ⟨0, _⟩ => exact lhs_dec_0 _ _
    | ⟨1, _⟩ => exact (lhs_dec_1 _ _).trans (hk k)
  · match a with
    | ⟨0, _⟩ => exact rhs_dec_0 _ _
    | ⟨1, _⟩ => exact (rhs_dec_1 _ _).trans (hk k)

variable (V : (c : Dev nD) → (b : Ref sig .tc) → Buf (Elt Ideal) ((c : Thread nD τ).loc b))

abbrev latent (c : Dev nD) : S16384x64.Idx → EReal := V c main_v55

noncomputable def decG (Z : S16384x64.Idx → EReal) : S16384x16384.Idx → EReal :=
  fun i => Ideal.logistic (∑ k : Fin 64, Z (ix2 (i 0) k) * Z (ix2 (i 1) k))

theorem zeros2 : (![0, 0] : Fin 2 → Nat) = fun _ => 0 := by decide

theorem idx_dec : ∀ t : Fin cfg3.N, win3_0.index t (0 : Fin 2) = t.val / 16 ∧ win3_0.index t (1 : Fin 2) = 0
    ∧ win3_1.index t (0 : Fin 2) = t.val % 16 ∧ win3_1.index t (1 : Fin 2) = 0
    ∧ win3_2.index t (0 : Fin 2) = t.val / 16 ∧ win3_2.index t (1 : Fin 2) = t.val % 16 :=
  (by decide +kernel : ∀ t : Fin grid3.N, _)

-- The output block at point t is decG of the table, index by index: its rows are those of the two input blocks.
theorem flushed_dec (c : Dev nD) (t : Fin cfg3.N) :
    (dat3 (F := Ideal) V c).flushed 2 t = ((cfg3.win 2).blk t).view.read (Elt Ideal) (decG (latent V c)) := by
  show (cfg3.win 2).cut (grid3.coords t) ((dat3 V c).after 2 t) = _
  dsimp only [dat3]
  unfold out3_2
  rw [View.canon_unit_zero zeros2]
  simp only [View.ld_unit_zero (S := S2048x64) zeros2, View.ld_unit_zero (S := S1024x64) zeros2]
  obtain ⟨e0, e1, e2, e3, e4, e5⟩ := idx_dec t
  funext j
  obtain ⟨p, q, rfl⟩ : ∃ (p : Fin 2048) (q : Fin 1024), j = ix2 p q := ⟨j 0, j 1, eq_ix2 j⟩
  refine (pay_dec_apply (iblk3 V c 0 t) (iblk3 V c 1 t) p q).trans (congrArg Ideal.logistic (Finset.sum_congr rfl fun k _ =>
    congrArg₂ (fun a b => latent V c a * latent V c b) (funext fun a => Fin.ext ?_) (funext fun a => Fin.ext ?_)))
  · match a with
    | ⟨0, _⟩ => show win3_0.index t (0 : Fin 2) * 2048 + 1 * p.val = win3_2.index t (0 : Fin 2) * 2048 + 1 * p.val; omega
    | ⟨1, _⟩ => show win3_0.index t (1 : Fin 2) * 64 + 1 * k.val = k.val; omega
  · match a with
    | ⟨0, _⟩ => show win3_1.index t (0 : Fin 2) * 1024 + 1 * q.val = win3_2.index t (1 : Fin 2) * 1024 + 1 * q.val; omega
    | ⟨1, _⟩ => show win3_1.index t (1 : Fin 2) * 64 + 1 * k.val = k.val; omega

-- The index (r, s) lies in the block of the point at block row r / 2048 and block column s / 1024.
theorem cover_dec (i : S16384x16384.Idx) :
    ∃ t : Fin cfg3.N, (cfg3.win 2).flush t = true ∧ i ∈ ((cfg3.win 2).blk t).view.set := by
  have hi0 : (i 0).val < 16384 := (i 0).isLt
  have hi1 : (i 1).val < 16384 := (i 1).isLt
  let t : Fin cfg3.N := ⟨(i 0).val / 2048 * 16 + (i 1).val / 1024, lt_of_lt_of_eq (by omega) N_3.symm⟩
  have ht : t.val = (i 0).val / 2048 * 16 + (i 1).val / 1024 := rfl
  obtain ⟨-, -, -, -, e4, e5⟩ := idx_dec t
  refine ⟨t, flush3_2 t, ?_⟩
  show i ∈ ((View.whole main_v56).slice (win3_2.rect t)).set
  rw [View.set_slice_whole, Rect.mem_set_unit]
  intro a
  match a with
  | ⟨0, _⟩ => show win3_2.index t (0 : Fin 2) * 2048 ≤ (i 0).val ∧ (i 0).val < win3_2.index t (0 : Fin 2) * 2048 + 2048; omega
  | ⟨1, _⟩ => show win3_2.index t (1 : Fin 2) * 1024 ≤ (i 1).val ∧ (i 1).val < win3_2.index t (1 : Fin 2) * 1024 + 1024; omega

-- The blocks of the 8 by 16 points cover the output array, and each holds decG of the table.
theorem dec3_final (c : Dev nD) (i j : Fin 16384) :
    (dat3 (F := Ideal) V c).arrAt 2 cfg3.N (ix2 i j)
      = Ideal.logistic (∑ k : Fin 64, latent V c (ix2 i k) * latent V c (ix2 j k)) := by
  rw [(dat3 (F := Ideal) V c).arrAt_eq_of_cover 2 (decG (latent V c)) (fun t _ => flushed_dec V c t) cover_dec]
  rfl

end Cert.KernelIdeal.HandV

end
-- ==== Proof.KI.KernelValues.lean ====
import proofs.«406303_j13073880449913_1_alg».proof.Proof.KI.Segs
import proofs.«406303_j13073880449913_1_alg».proof.Proof.KI.HostValsA
import proofs.«406303_j13073880449913_1_alg».proof.Proof.KI.HostValsB
import proofs.«406303_j13073880449913_1_alg».proof.Proof.KI.Agg0Value
import proofs.«406303_j13073880449913_1_alg».proof.Proof.KI.Agg1Value
import proofs.«406303_j13073880449913_1_alg».proof.Proof.KI.Agg2Value
import proofs.«406303_j13073880449913_1_alg».proof.Proof.KI.Dec3Value

noncomputable section

namespace Cert.KernelIdeal.HandV

open Cert.KernelIdeal Cert.KernelIdeal.Gen Cert.KernelIdeal.Hand
open Idealize.ShloMosaic Idealize.ShloMosaic.TcCoe Idealize.ShloMosaic.ValueIdx
open Cert.GraphSpec Cert.Layers

variable (m : (ℓ : Loc nD τ sig) → Buf (Elt Ideal) ℓ) (c : Dev nD)

theorem outs_res0 : hidOut (outsF m) c = (res0 m c : S16384x128.Idx → EReal) := (Function.update_self _ _ _ : U4 m c main_v41 = _)
theorem outs_res1 : muOut (outsF m) c = (res1 m c : S16384x64.Idx → EReal) := (Function.update_self _ _ _ : U6 m c main_v45 = _)
theorem outs_res2 : lvOut (outsF m) c = (res2 m c : S16384x64.Idx → EReal) := (Function.update_self _ _ _ : U8 m c main_v49 = _)

theorem U10_main_v56 : U10 m c main_v56 = res3 m c := Function.update_self _ _ _
theorem U10_main_v45 : U10 m c main_v45 = res1 m c := V10_eq m c ▸ (V10_main_v45 m (outsF m) c).trans (outs_res1 m c)
theorem U10_main_v49 : U10 m c main_v49 = res2 m c := V10_eq m c ▸ (V10_main_v49 m (outsF m) c).trans (outs_res2 m c)

variable (hs : ∀ e, 0 ≤ (srcW m c e).toInt ∧ (srcW m c e).toInt < 16384) (hd : ∀ e, 0 ≤ (dstW m c e).toInt ∧ (dstW m c e).toInt < 16384)
include hs hd

/-- The dense matrix's row against a column of a table is the convolution along the edge list: the weights are nonnegative. -/
theorem conv_eq {C : ℕ} (A : S16384x16384.Idx → EReal) (hA : A = V3 m c main_v37) (Y : (⟨2, ![16384, C]⟩ : Shape).Idx → EReal)
    (T : Fin 16384 → Fin C → EReal) (i : Fin 16384) (k : Fin C) (hY : ∀ j, Y (ix2 j k) = T j k) :
    ∑ j, A (ix2 i j) * Y (ix2 j k) = Layers.conv (srcW m c) (dstW m c) (nrmW m c) T i k := by
  subst hA
  unfold Layers.conv
  rw [← adj_mul_sum _ _ _ fun e => Cert.GraphFacts.nrm_nonneg (argEdges m c) (ix1 e)]
  exact Finset.sum_congr rfl fun j _ => by rw [V3_v37_apply m c hs hd i j, hY j]

theorem kv_hidden (i : Fin 16384) (k : Fin 128) : res0 m c (ix2 i k) = hidden (srcW m c) (dstW m c) (nrmW m c) (argX m c) (argW1 m c) (argB1 m c) i k :=
  (agg0_final (Vof (V3 m)) c i k).trans <| congrArg₂ (fun s b : EReal => max (s + b) 0)
    (conv_eq m c hs hd _ rfl _ _ i k fun j => V3_v39_apply m c j k) (V3_v40_apply m c k)

/-- A projection layer's sum: its product table is the hidden layer times the layer's weights. -/
theorem layer_eq (A : S16384x16384.Idx → EReal) (hA : A = V3 m c main_v37) (Y : S16384x64.Idx → EReal) (W : S128x64.Idx → EReal)
    (i : Fin 16384) (k : Fin 64) (hY : ∀ j, Y (ix2 j k) = ∑ l : Fin 128, hidOut (outsF m) c (ix2 j l) * W (ix2 l k)) :
    ∑ j, A (ix2 i j) * Y (ix2 j k) = Layers.conv (srcW m c) (dstW m c) (nrmW m c) (mm (hidden (srcW m c) (dstW m c) (nrmW m c) (argX m c) (argW1 m c) (argB1 m c)) W) i k :=
  conv_eq m c hs hd A hA Y _ i k fun j => (hY j).trans <| Finset.sum_congr rfl fun l _ => by
    rw [outs_res0, kv_hidden m c hs hd j l]

theorem kv_mu (i : Fin 16384) (k : Fin 64) : res1 m c (ix2 i k) = muOf (srcW m c) (dstW m c) (nrmW m c) (argX m c) (argW1 m c) (argB1 m c) (argWmu m c) (argBmu m c) i k := by
  refine (agg1_final (Vof (U5 m)) c i k).trans (congrArg₂ (fun s b : EReal => s + b) (layer_eq m c hs hd _ ?_ _ _ i k fun j => ?_) ?_)
  · show U5 m c main_v37 = _; rw [← V5_eq m c]; exact V5_main_v37 m _ c
  · show U5 m c main_v43 _ = _; rw [← V5_eq m c]; exact V5_main_v43_apply m _ c j k
  · show U5 m c main_v44 _ = _; rw [← V5_eq m c]; exact V5_main_v44_apply m _ c k

theorem kv_lv (i : Fin 16384) (k : Fin 64) : res2 m c (ix2 i k) = lvOf (srcW m c) (dstW m c) (nrmW m c) (argX m c) (argW1 m c) (argB1 m c) (argWlv m c) (argBlv m c) i k := by
  refine (agg2_final (Vof (U7 m)) c i k).trans (congrArg₂ (fun s b : EReal => s + b) (layer_eq m c hs hd _ ?_ _ _ i k fun j => ?_) ?_)
  · show U7 m c main_v37 = _; rw [← V7_eq m c]; exact V7_main_v37 m _ c
  · show U7 m c main_v47 _ = _; rw [← V7_eq m c]; exact V7_main_v47_apply m _ c j k
  · show U7 m c main_v48 _ = _; rw [← V7_eq m c]; exact V7_main_v48_apply m _ c k

theorem latent_zOf (i : Fin 16384) (k : Fin 64) : latent (Vof (U9 m)) c (ix2 i k) = zOf (srcW m c) (dstW m c) (nrmW m c) (argX m c) (argEps m c) (argW1 m c) (argB1 m c) (argWmu m c) (argBmu m c) (argWlv m c) (argBlv m c) i k := by
  show U9 m c main_v55 _ = _
  rw [← V9_eq m c, V9_main_v55_apply, outs_res1, outs_res2, kv_mu m c hs hd, kv_lv m c hs hd]
  rfl

theorem kv_recon (i j : Fin 16384) : res3 m c (ix2 i j) = reconOf (srcW m c) (dstW m c) (nrmW m c) (argX m c) (argEps m c) (argW1 m c) (argB1 m c) (argWmu m c) (argBmu m c) (argWlv m c) (argBlv m c) i j :=
  (dec3_final (Vof (U9 m)) c i j).trans <| congrArg Ideal.logistic <| Finset.sum_congr rfl fun k _ => by
    rw [latent_zOf m c hs hd i k, latent_zOf m c hs hd j k]

end Cert.KernelIdeal.HandV

end
-- ==== Proof.PreRange.lean ====
import proofs.«406303_j13073880449913_1_alg».proof.Pre_finite_inputs
import Idealize.ShloMosaic.Lib.ReduceAll
import Idealize.ShloMosaic.Lib.ValueIdx

namespace Cert.PreRange

open Idealize.ShloMosaic Cert.Pre_finite_inputs

variable {F : FTy → Type} [FloatOps F]

instance subsingleton_scalar_idx : Subsingleton S_.Idx := ⟨fun a b => funext fun d => d.elim0⟩

/-- The conjunction's last two conjuncts are the two range tests on the edge list, each true at every entry when the whole is true. -/
theorem part2_range [Facts] (a1 : IVec S2x262144 32) (a8 : FVec F S64 .f32) (v33 : IVec S_ 1)
    (h : fn_part2 (F := F) a1 a8 v33 = fun _ => 1#1) (i : S2x262144.Idx) :
    0 ≤ (a1 i).toInt ∧ (a1 i).toInt < 16384 := by
  have h0 := congrFun h ValueIdx.ix0
  dsimp only [fn_part2, andi] at h0
  obtain ⟨h1, hlt⟩ := IntOp.andi_eq_one.1 h0
  obtain ⟨-, hge⟩ := IntOp.andi_eq_one.1 h1
  have g := IntOp.cmpi_sge.1 (show IntOp.cmpi .sge (a1 i) (0#32) = 1#1 from Host.reduce_andi_all _ _ _ _ _ hge i)
  have l := IntOp.cmpi_slt.1 (show IntOp.cmpi .slt (a1 i) (16384#32) = 1#1 from Host.reduce_andi_all _ _ _ _ _ hlt i)
  rw [show (0#32 : BitVec 32).toInt = 0 from by decide] at g
  rw [show (16384#32 : BitVec 32).toInt = 16384 from by decide] at l
  exact ⟨g, l⟩

/-- The precondition confines the edge list to node numbers. -/
theorem edge_range (a0 : FVec F S16384x256 .f32) (a1 : IVec S2x262144 32) (a2 : FVec F S16384x64 .f32)
    (a3 : FVec F S256x128 .f32) (a4 : FVec F S128 .f32) (a5 : FVec F S128x64 .f32) (a6 : FVec F S64 .f32)
    (a7 : FVec F S128x64 .f32) (a8 : FVec F S64 .f32) [Cert.Pre_finite_inputs.Facts]
    (h : Cert.Pre_finite_inputs.fn (F := F) a0 a1 a2 a3 a4 a5 a6 a7 a8 = fun _ => 1#1) :
    ∀ i : Cert.Pre_finite_inputs.S2x262144.Idx, 0 ≤ (a1 i).toInt ∧ (a1 i).toInt < 16384 := by
  dsimp only [Cert.Pre_finite_inputs.fn, fn_part1] at h
  exact part2_range a1 a8 _ h

end Cert.PreRange
-- ==== Proof.lean ====
/- A three-layer graph convolution with an inner-product decoder. The kernel folds the edge list into a dense weighted
   adjacency matrix and computes each layer as a matrix product accumulated over eight blocks of columns; the reference
   aggregates along the edge list. Over the extended reals the two agree: the edge weights are nonnegative, so a feature may
   be multiplied before or after the weights of parallel edges are summed; a sum over 16384 columns is the sum of its eight
   blocks; and the edge list's entries are node numbers, so a flat position names one matrix entry. -/
import proofs.«406303_j13073880449913_1_alg».proof.Defs
import proofs.«406303_j13073880449913_1_alg».proof.Proof.Gen.Kernel
import proofs.«406303_j13073880449913_1_alg».proof.Proof.Gen.KernelIdeal
import proofs.«406303_j13073880449913_1_alg».proof.Proof.Gen.ReferenceIdeal
import proofs.«406303_j13073880449913_1_alg».proof.Proof.Gen.Pre_finite_inputs
import proofs.«406303_j13073880449913_1_alg».proof.Proof.KB.FrameOf
import proofs.«406303_j13073880449913_1_alg».proof.Proof.KI.FrameOf
import proofs.«406303_j13073880449913_1_alg».proof.Proof.RefValues
import proofs.«406303_j13073880449913_1_alg».proof.Proof.GraphFacts
import proofs.«406303_j13073880449913_1_alg».proof.Proof.KI.KernelValues
import proofs.«406303_j13073880449913_1_alg».proof.Proof.PreRange
import Idealize.ShloMosaic.Adequacy
import Idealize.ShloMosaic.Init

noncomputable section

namespace Cert.Proof

open Idealize.ShloMosaic Idealize.SL.Sem Idealize.ShloMosaic.ValueIdx Idealize.ShloMosaic.TcCoe

section Claims
variable [hK : Cert.Kernel.Facts] [hKI : Cert.KernelIdeal.Facts] [hR : Cert.ReferenceIdeal.Facts] [hP : Cert.Pre_finite_inputs.Facts]

theorem frame_k : Cert.frame_Kernel := fun m ρ _ =>
  (θ_run Cert.Kernel.defs _ _).mono (fun _ h c => (h c).2.2.2) (Cert.Kernel.Hand.kernel_run m ρ)
theorem frame_ki : Cert.frame_KernelIdeal := fun m ρ _ =>
  (θ_run Cert.KernelIdeal.defs _ _).mono (fun _ h c => (h c).2.2.2) (Cert.KernelIdeal.Hand.kernel_run m ρ)
theorem frame_ri : Cert.frame_ReferenceIdeal := fun m ρ _ =>
  (θ_run Cert.ReferenceIdeal.defs _ _).mono (fun _ h c => (h c).2.2.2) (Cert.ReferenceIdeal.ValueP.run (F := Ideal) m ρ)

theorem algebraic : Cert.algebraic_KernelIdeal_ReferenceIdeal := by
  intro m ρ m' ρ' hpre hagree
  refine ⟨fun c => Cert.KernelIdeal.Hand.U10 m c Cert.KernelIdeal.main_v56, fun c => Cert.KernelIdeal.Hand.U10 m c Cert.KernelIdeal.main_v45,
    fun c => Cert.KernelIdeal.Hand.U10 m c Cert.KernelIdeal.main_v49, Cert.KernelIdeal.Hand.kernel_run m ρ,
    (θ_run Cert.ReferenceIdeal.defs _ _).mono (fun r h c => ?_) (Cert.ReferenceIdeal.ValueP.run (F := Ideal) m' ρ')⟩
  obtain ⟨e0, e1, e2, e3, e4, e5, e6, e7, e8⟩ := hagree c
  have hr := Cert.PreRange.edge_range _ _ _ _ _ _ _ _ _ (hpre c)
  have hs := Cert.GraphFacts.src_range (F := Ideal) _ hr
  have hd := Cert.GraphFacts.dst_range (F := Ideal) _ hr
  refine ⟨(h c).1.trans ?_, (h c).2.1.trans ?_, (h c).2.2.1.trans ?_, (h c).2.2.2⟩ <;> funext idx <;>
    obtain ⟨i, j, rfl⟩ : ∃ i j, idx = ix2 i j := ⟨idx 0, idx 1, eq_ix2 idx⟩
  · rw [Cert.ReferenceIdeal.ReadP.val_main_v94_eq, e0, e1, e2, e3, e4, e5, e6, e7, e8]
    exact (Cert.RefValues.recon_eq _ _ _ _ _ _ _ _ _ hs hd i j).trans
      ((congrFun (Cert.KernelIdeal.HandV.U10_main_v56 m c) _).trans (Cert.KernelIdeal.HandV.kv_recon m c hs hd i j)).symm
  · rw [Cert.ReferenceIdeal.ReadP.val_main_v64_eq, e0, e1, e3, e4, e5, e6]
    exact (Cert.RefValues.mu_eq _ _ _ _ _ _ hs hd i j).trans
      ((congrFun (Cert.KernelIdeal.HandV.U10_main_v45 m c) _).trans (Cert.KernelIdeal.HandV.kv_mu m c hs hd i j)).symm
  · rw [Cert.ReferenceIdeal.ReadP.val_main_v81_eq, e0, e1, e3, e4, e7, e8]
    exact (Cert.RefValues.lv_eq _ _ _ _ _ _ hs hd i j).trans
      ((congrFun (Cert.KernelIdeal.HandV.U10_main_v49 m c) _).trans (Cert.KernelIdeal.HandV.kv_lv m c hs hd i j)).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
